-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 512, 512]⟩ ⟨3, ![4, 512, 512]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x512 : Shape := ⟨3, ![1, 512, 512]⟩
abbrev S_ : Shape := ⟨0, ![]⟩

class Facts : Prop where
  bcast_S_S1x512x512 : S_.BroadcastsInDim S1x512x512 (![] : Fin 0 → Fin S1x512x512.rank)
  reducesTo_S1x512x512_S_d0_1_2 : S1x512x512.ReducesTo [0, 1, 2] S_
  h_S_ : 0 < S_.numel

variable [Facts]

def fn {F : FTy → Type} [FloatOps F] (main_arg0 : FVec F S1x512x512 .f32) : IVec S_ 1 :=
  let main_v0 : FVec F S1x512x512 .f32 := Host.absf main_arg0
  let main_cst : FVec F S_ .f32 := constant S_ .f32 0x7F800000#32
  let main_v1 : FVec F S1x512x512 .f32 := broadcastInDim S1x512x512 ![] bcast_S_S1x512x512 main_cst
  let main_v2 : IVec S1x512x512 1 := cmpf .olt main_v0 main_v1
  let main_c : IVec S_ 1 := constantI S_ 1 1#1
  let main_v3 : IVec S_ 1 := (fun x v => Host.reduce IntOp.andi x v reducesTo_S1x512x512_S_d0_1_2 h_S_) main_v2 main_c
  main_v3
-- ==== Pre_finite_inputs_ReferenceIdeal.lean ====
abbrev S4x512x512 : Shape := ⟨3, ![4, 512, 512]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel

variable [Facts]

def fn {F : FTy → Type} [FloatOps F] (main_arg0 : FVec F S4x512x512 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  main_v3
-- ==== Kernel.lean ====
abbrev S1x512x512 : Shape := ⟨3, ![1, 512, 512]⟩
abbrev S512x512 : Shape := ⟨2, ![512, 512]⟩
abbrev S24x32x512 : Shape := ⟨3, ![24, 32, 512]⟩
abbrev S24 : Shape := ⟨1, ![24]⟩
abbrev S_ : Shape := ⟨0, ![]⟩
abbrev S1 : Shape := ⟨1, ![1]⟩
abbrev S1x32x512 : Shape := ⟨3, ![1, 32, 512]⟩
abbrev S32x512 : Shape := ⟨2, ![32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .local _ .vmem, ⟨0, _⟩ => ⟨S1x512x512, .f32⟩
  | .local _ .vmem, ⟨1, _⟩ => ⟨S512x512, .f32⟩
  | .local _ .vmem, ⟨2, _⟩ => ⟨S24x32x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_26 : BitVec 32 := 1#32
  let v59 : BitVec 32 := Scalar.muli v3 c1_i32_26
  let v60 : BitVec 32 := Scalar.addi c0_i32_27 v59
  v60.toNat
def k0_dev2 (d0 : Dev nD) : Nat :=
  let c0_i32_30 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_29 : BitVec 32 := 1#32
  let v61 : BitVec 32 := Scalar.muli v4 c1_i32_29
  let v62 : BitVec 32 := Scalar.addi c0_i32_30 v61
  v62.toNat
def k0_off1 (d0 : Dev nD) (c0_i32_32 : BitVec 32) : Fin 3 → Nat :=
  let c0_i32_33 : BitVec 32 := 0#32
  let c1_i32_20 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v53 : BitVec 32 := Scalar.subi c1_i32_20 v32
  let c128_i32_21 : BitVec 32 := 128#32
  let v54 : BitVec 32 := Scalar.muli v53 c128_i32_21
  let v63 : BitVec 32 := Scalar.addi v54 c0_i32_32
  let c0_i32_41 : BitVec 32 := 0#32
  ![0, v63.toNat, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_37 : BitVec 32 := 1#32
  let v64 : BitVec 32 := Scalar.muli v3 c1_i32_37
  let v65 : BitVec 32 := Scalar.addi c0_i32_38 v64
  v65.toNat
def k0_off2 (d0 : Dev nD) (c0_i32_42 : BitVec 32) : Fin 3 → Nat :=
  let c0_i32_43 : BitVec 32 := 0#32
  let c256_i32_24 : BitVec 32 := 256#32
  let c1_i32_22 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let v55 : BitVec 32 := Scalar.subi c1_i32_22 v49
  let c128_i32_23 : BitVec 32 := 128#32
  let v56 : BitVec 32 := Scalar.muli v55 c128_i32_23
  let v57 : BitVec 32 := Scalar.addi c256_i32_24 v56
  let v74 : BitVec 32 := Scalar.addi v57 c0_i32_42
  let c0_i32_51 : BitVec 32 := 0#32
  ![0, v74.toNat, 0]
def k0_dev4 (d0 : Dev nD) : Nat :=
  let c0_i32_48 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_47 : BitVec 32 := 1#32
  let v75 : BitVec 32 := Scalar.muli v4 c1_i32_47
  let v76 : BitVec 32 := Scalar.addi c0_i32_48 v75
  v76.toNat
def k0_dev5 (d0 : Dev nD) : Nat :=
  let c0_i32_57 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_56 : BitVec 32 := 1#32
  let v86 : BitVec 32 := Scalar.muli v3 c1_i32_56
  let v87 : BitVec 32 := Scalar.addi c0_i32_57 v86
  v87.toNat
def k0_dev6 (d0 : Dev nD) : Nat :=
  let c0_i32_66 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_65 : BitVec 32 := 1#32
  let v97 : BitVec 32 := Scalar.muli v4 c1_i32_65
  let v98 : BitVec 32 := Scalar.addi c0_i32_66 v97
  v98.toNat
def k0_dev7 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_74 : BitVec 32 := 1#32
  let v108 : BitVec 32 := Scalar.muli v3 c1_i32_74
  let v109 : BitVec 32 := Scalar.addi c0_i32_75 v108
  v109.toNat
def k0_dev8 (d0 : Dev nD) : Nat :=
  let c0_i32_84 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_83 : BitVec 32 := 1#32
  let v119 : BitVec 32 := Scalar.muli v4 c1_i32_83
  let v120 : BitVec 32 := Scalar.addi c0_i32_84 v119
  v120.toNat
def k0_dev9 (d0 : Dev nD) : Nat :=
  let c0_i32_93 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_92 : BitVec 32 := 1#32
  let v130 : BitVec 32 := Scalar.muli v3 c1_i32_92
  let v131 : BitVec 32 := Scalar.addi c0_i32_93 v130
  v131.toNat
def k0_dev10 (d0 : Dev nD) : Nat :=
  let c0_i32_102 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_101 : BitVec 32 := 1#32
  let v141 : BitVec 32 := Scalar.muli v4 c1_i32_101
  let v142 : BitVec 32 := Scalar.addi c0_i32_102 v141
  v142.toNat
def k0_off3 (d0 : Dev nD) (c0_i32_106 : BitVec 32) : Fin 3 → Nat :=
  let c0 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c128_i32 : BitVec 32 := 128#32
  let v50 : BitVec 32 := Scalar.muli v32 c128_i32
  let v151 : BitVec 32 := Scalar.addi v50 c0_i32_106
  let v166 : Index := Scalar.indexCast v151
  let c0_124 : Index := 0#32
  ![0, v166.toNat, 0]
def k0_off4 (d0 : Dev nD) (c0_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c128_i32 : BitVec 32 := 128#32
  let v50 : BitVec 32 := Scalar.muli v32 c128_i32
  let v151 : BitVec 32 := Scalar.addi v50 c0_i32_106
  let v172 : Index := Scalar.indexCast v151
  let c0_128 : Index := 0#32
  ![v172.toNat, 0]
def k0_off5 (d0 : Dev nD) (c0_i32_106 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let c128_i32 : BitVec 32 := 128#32
  let v50 : BitVec 32 := Scalar.muli v32 c128_i32
  let v151 : BitVec 32 := Scalar.addi v50 c0_i32_106
  let c0_i32_135 : BitVec 32 := 0#32
  ![v151.toNat, 0]
def k0_dev11 (d0 : Dev nD) : Nat :=
  let c0_i32_132 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_131 : BitVec 32 := 1#32
  let v174 : BitVec 32 := Scalar.muli v4 c1_i32_131
  let v175 : BitVec 32 := Scalar.addi c0_i32_132 v174
  v175.toNat
def k0_off6 (d0 : Dev nD) (c0_i32_136 : BitVec 32) : Fin 3 → Nat :=
  let c0_154 : Index := 0#32
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c128_i32_19 : BitVec 32 := 128#32
  let v51 : BitVec 32 := Scalar.muli v49 c128_i32_19
  let v52 : BitVec 32 := Scalar.addi c256_i32 v51
  let v183 : BitVec 32 := Scalar.addi v52 c0_i32_136
  let v198 : Index := Scalar.indexCast v183
  let c0_155 : Index := 0#32
  ![0, v198.toNat, 0]
def k0_off7 (d0 : Dev nD) (c0_i32_136 : BitVec 32) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c128_i32_19 : BitVec 32 := 128#32
  let v51 : BitVec 32 := Scalar.muli v49 c128_i32_19
  let v52 : BitVec 32 := Scalar.addi c256_i32 v51
  let v183 : BitVec 32 := Scalar.addi v52 c0_i32_136
  let v204 : Index := Scalar.indexCast v183
  let c0_158 : Index := 0#32
  ![v204.toNat, 0]
def k0_off8 (d0 : Dev nD) (c0_i32_136 : BitVec 32) : Fin 2 → Nat :=
  let c256_i32 : BitVec 32 := 256#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let c128_i32_19 : BitVec 32 := 128#32
  let v51 : BitVec 32 := Scalar.muli v49 c128_i32_19
  let v52 : BitVec 32 := Scalar.addi c256_i32 v51
  let v183 : BitVec 32 := Scalar.addi v52 c0_i32_136
  let c0_i32_165 : BitVec 32 := 0#32
  ![v183.toNat, 0]
def k0_dev12 (d0 : Dev nD) : Nat :=
  let c0_i32_162 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_161 : BitVec 32 := 1#32
  let v206 : BitVec 32 := Scalar.muli v3 c1_i32_161
  let v207 : BitVec 32 := Scalar.addi c0_i32_162 v206
  v207.toNat
def k0_dev13 (d0 : Dev nD) : Nat :=
  let c0_i32_192 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_191 : BitVec 32 := 1#32
  let v238 : BitVec 32 := Scalar.muli v4 c1_i32_191
  let v239 : BitVec 32 := Scalar.addi c0_i32_192 v238
  v239.toNat
def k0_dev14 (d0 : Dev nD) : Nat :=
  let c0_i32_222 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_221 : BitVec 32 := 1#32
  let v270 : BitVec 32 := Scalar.muli v3 c1_i32_221
  let v271 : BitVec 32 := Scalar.addi c0_i32_222 v270
  v271.toNat
def k0_dev15 (d0 : Dev nD) : Nat :=
  let c0_i32_252 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_251 : BitVec 32 := 1#32
  let v302 : BitVec 32 := Scalar.muli v4 c1_i32_251
  let v303 : BitVec 32 := Scalar.addi c0_i32_252 v302
  v303.toNat
def k0_dev16 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_281 : BitVec 32 := 1#32
  let v334 : BitVec 32 := Scalar.muli v3 c1_i32_281
  let v335 : BitVec 32 := Scalar.addi c0_i32_282 v334
  v335.toNat
def k0_dev17 (d0 : Dev nD) : Nat :=
  let c0_i32_312 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_311 : BitVec 32 := 1#32
  let v366 : BitVec 32 := Scalar.muli v4 c1_i32_311
  let v367 : BitVec 32 := Scalar.addi c0_i32_312 v366
  v367.toNat
def k0_dev18 (d0 : Dev nD) : Nat :=
  let c0_i32_342 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_341 : BitVec 32 := 1#32
  let v398 : BitVec 32 := Scalar.muli v3 c1_i32_341
  let v399 : BitVec 32 := Scalar.addi c0_i32_342 v398
  v399.toNat
def k0_dev19 (d0 : Dev nD) : Nat :=
  let c0_i32_369 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_368 : BitVec 32 := 1#32
  let v428 : BitVec 32 := Scalar.muli v3 c1_i32_368
  let v429 : BitVec 32 := Scalar.addi c0_i32_369 v428
  v429.toNat
def k0_dev20 (d0 : Dev nD) : Nat :=
  let c0_i32_396 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_395 : BitVec 32 := 1#32
  let v458 : BitVec 32 := Scalar.muli v4 c1_i32_395
  let v459 : BitVec 32 := Scalar.addi c0_i32_396 v458
  v459.toNat
def k0_dev21 (d0 : Dev nD) : Nat :=
  let c0_i32_423 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_422 : BitVec 32 := 1#32
  let v488 : BitVec 32 := Scalar.muli v3 c1_i32_422
  let v489 : BitVec 32 := Scalar.addi c0_i32_423 v488
  v489.toNat
def k0_dev22 (d0 : Dev nD) : Nat :=
  let c0_i32_450 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_449 : BitVec 32 := 1#32
  let v518 : BitVec 32 := Scalar.muli v4 c1_i32_449
  let v519 : BitVec 32 := Scalar.addi c0_i32_450 v518
  v519.toNat
def k0_dev23 (d0 : Dev nD) : Nat :=
  let c0_i32_477 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_476 : BitVec 32 := 1#32
  let v548 : BitVec 32 := Scalar.muli v3 c1_i32_476
  let v549 : BitVec 32 := Scalar.addi c0_i32_477 v548
  v549.toNat
def k0_dev24 (d0 : Dev nD) : Nat :=
  let c0_i32_504 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_503 : BitVec 32 := 1#32
  let v578 : BitVec 32 := Scalar.muli v4 c1_i32_503
  let v579 : BitVec 32 := Scalar.addi c0_i32_504 v578
  v579.toNat
def k0_dev25 (d0 : Dev nD) : Nat :=
  let c0_i32_531 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.xori v2 c1_i32_0
  let c1_i32_530 : BitVec 32 := 1#32
  let v608 : BitVec 32 := Scalar.muli v3 c1_i32_530
  let v609 : BitVec 32 := Scalar.addi c0_i32_531 v608
  v609.toNat
def k0_dev26 (d0 : Dev nD) : Nat :=
  let c0_i32_558 : BitVec 32 := 0#32
  let c3_i32 : BitVec 32 := 3#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v4 : BitVec 32 := Scalar.subi c3_i32 v2
  let c1_i32_557 : BitVec 32 := 1#32
  let v638 : BitVec 32 := Scalar.muli v4 c1_i32_557
  let v639 : BitVec 32 := Scalar.addi c0_i32_558 v638
  v639.toNat
def k0_off9 (d0 : Dev nD) (c0_i32_579 : BitVec 32) : Fin 2 → Nat :=
  let c1_i32_20 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32 : BitVec 32 := 0#32
  let v6 : BitVec 1 := Scalar.cmpi .sgt v2 c0_i32
  let v7 : BitVec 32 := Scalar.extui v6
  let c0_i32_1 : BitVec 32 := 0#32
  let v8 : BitVec 1 := Scalar.cmpi .slt v2 c0_i32_1
  let v9 : BitVec 32 := Scalar.extui v8
  let v10 : BitVec 32 := Scalar.subi v7 v9
  let c2_i32 : BitVec 32 := 2#32
  let c0_i32_2 : BitVec 32 := 0#32
  let v11 : BitVec 1 := Scalar.cmpi .sgt c2_i32 c0_i32_2
  let v12 : BitVec 32 := Scalar.extui v11
  let c0_i32_3 : BitVec 32 := 0#32
  let v13 : BitVec 1 := Scalar.cmpi .slt c2_i32 c0_i32_3
  let v14 : BitVec 32 := Scalar.extui v13
  let v15 : BitVec 32 := Scalar.subi v12 v14
  let v16 : BitVec 1 := Scalar.cmpi .ne v10 v15
  let v17 : BitVec 32 := Scalar.remsi v2 c2_i32
  let c0_i32_4 : BitVec 32 := 0#32
  let v18 : BitVec 1 := Scalar.cmpi .ne v17 c0_i32_4
  let v19 : BitVec 1 := Scalar.andi v16 v18
  let v5 : BitVec 32 := Scalar.divsi v2 c2_i32
  let c1_i32_5 : BitVec 32 := 1#32
  let v20 : BitVec 32 := Scalar.subi v5 c1_i32_5
  let v21 : BitVec 32 := Scalar.select v19 v20 v5
  let v22 : BitVec 32 := Scalar.xori v2 v21
  let c2_i32_6 : BitVec 32 := 2#32
  let c0_i32_7 : BitVec 32 := 0#32
  let v23 : BitVec 1 := Scalar.cmpi .eq c2_i32_6 c0_i32_7
  let c1_i32_8 : BitVec 32 := 1#32
  let v24 : BitVec 32 := Scalar.select v23 c1_i32_8 c2_i32_6
  let v25 : BitVec 32 := Scalar.remsi v22 v24
  let c0_i32_10 : BitVec 32 := 0#32
  let v27 : BitVec 1 := Scalar.cmpi .slt v25 c0_i32_10
  let c0_i32_11 : BitVec 32 := 0#32
  let v28 : BitVec 1 := Scalar.cmpi .slt v24 c0_i32_11
  let v29 : BitVec 1 := Scalar.xori v27 v28
  let c0_i32_9 : BitVec 32 := 0#32
  let v26 : BitVec 1 := Scalar.cmpi .ne v25 c0_i32_9
  let v30 : BitVec 1 := Scalar.andi v29 v26
  let v31 : BitVec 32 := Scalar.addi v25 v24
  let v32 : BitVec 32 := Scalar.select v30 v31 v25
  let v53 : BitVec 32 := Scalar.subi c1_i32_20 v32
  let c128_i32_21 : BitVec 32 := 128#32
  let v54 : BitVec 32 := Scalar.muli v53 c128_i32_21
  let v661 : BitVec 32 := Scalar.addi v54 c0_i32_579
  let v662 : Index := Scalar.indexCast v661
  let c0_580 : Index := 0#32
  ![v662.toNat, 0]
def k0_off10 (d0 : Dev nD) (c0_i32_598 : BitVec 32) : Fin 2 → Nat :=
  let c256_i32_24 : BitVec 32 := 256#32
  let c1_i32_22 : BitVec 32 := 1#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_13 : BitVec 32 := 0#32
  let v34 : BitVec 1 := Scalar.cmpi .sgt v2 c0_i32_13
  let v35 : BitVec 32 := Scalar.extui v34
  let c0_i32_14 : BitVec 32 := 0#32
  let v36 : BitVec 1 := Scalar.cmpi .slt v2 c0_i32_14
  let v37 : BitVec 32 := Scalar.extui v36
  let v38 : BitVec 32 := Scalar.subi v35 v37
  let c2_i32_12 : BitVec 32 := 2#32
  let c0_i32_15 : BitVec 32 := 0#32
  let v39 : BitVec 1 := Scalar.cmpi .sgt c2_i32_12 c0_i32_15
  let v40 : BitVec 32 := Scalar.extui v39
  let c0_i32_16 : BitVec 32 := 0#32
  let v41 : BitVec 1 := Scalar.cmpi .slt c2_i32_12 c0_i32_16
  let v42 : BitVec 32 := Scalar.extui v41
  let v43 : BitVec 32 := Scalar.subi v40 v42
  let v44 : BitVec 1 := Scalar.cmpi .ne v38 v43
  let v45 : BitVec 32 := Scalar.remsi v2 c2_i32_12
  let c0_i32_17 : BitVec 32 := 0#32
  let v46 : BitVec 1 := Scalar.cmpi .ne v45 c0_i32_17
  let v47 : BitVec 1 := Scalar.andi v44 v46
  let v33 : BitVec 32 := Scalar.divsi v2 c2_i32_12
  let c1_i32_18 : BitVec 32 := 1#32
  let v48 : BitVec 32 := Scalar.subi v33 c1_i32_18
  let v49 : BitVec 32 := Scalar.select v47 v48 v33
  let v55 : BitVec 32 := Scalar.subi c1_i32_22 v49
  let c128_i32_23 : BitVec 32 := 128#32
  let v56 : BitVec 32 := Scalar.muli v55 c128_i32_23
  let v57 : BitVec 32 := Scalar.addi c256_i32_24 v56
  let v678 : BitVec 32 := Scalar.addi v57 c0_i32_598
  let v679 : Index := Scalar.indexCast v678
  let c0_599 : Index := 0#32
  ![v679.toNat, 0]
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S24_S1_0 : ∀ a, (![0] : Fin 1 → Nat) a + S1.size a ≤ S24.size a
  squeezes_S1_S_ : S1.Squeezes S_
  inb_S24x32x512_S1x32x512_0_0_0 : ∀ a, (![0, 0, 0] : Fin 3 → Nat) a + S1x32x512.size a ≤ S24x32x512.size a
  squeezes_S1x32x512_S32x512 : S1x32x512.Squeezes S32x512
  inb_S24_S1_4 : ∀ a, (![4] : Fin 1 → Nat) a + S1.size a ≤ S24.size a
  inb_S24x32x512_S1x32x512_4_0_0 : ∀ a, (![4, 0, 0] : Fin 3 → Nat) a + S1x32x512.size a ≤ S24x32x512.size a
  inb_S24_S1_1 : ∀ a, (![1] : Fin 1 → Nat) a + S1.size a ≤ S24.size a
  inb_S24x32x512_S1x32x512_1_0_0 : ∀ a, (![1, 0, 0] : Fin 3 → Nat) a + S1x32x512.size a ≤ S24x32x512.size a
  inb_S24_S1_5 : ∀ a, (![5] : Fin 1 → Nat) a + S1.size a ≤ S24.size a
  inb_S24x32x512_S1x32x512_5_0_0 : ∀ a, (![5, 0, 0] : Fin 3 → Nat) a + S1x32x512.size a ≤ S24x32x512.size a
  inb_S24_S1_2 : ∀ a, (![2] : Fin 1 → Nat) a + S1.size a ≤ S24.size a
  inb_S24x32x512_S1x32x512_2_0_0 : ∀ a, (![2, 0, 0] : Fin 3 → Nat) a + S1x32x512.size a ≤ S24x32x512.size a
  inb_S24_S1_6 : ∀ a, (![6] : Fin 1 → Nat) a + S1.size a ≤ S24.size a
  inb_S24x32x512_S1x32x512_6_0_0 : ∀ a, (![6, 0, 0] : Fin 3 → Nat) a + S1x32x512.size a ≤ S24x32x512.size a
  inb_S24_S1_3 : ∀ a, (![3] : Fin 1 → Nat) a + S1.size a ≤ S24.size a
  inb_S24x32x512_S1x32x512_3_0_0 : ∀ a, (![3, 0, 0] : Fin 3 → Nat) a + S1x32x512.size a ≤ S24x32x512.size a
  inb_S24_S1_7 : ∀ a, (![7] : Fin 1 → Nat) a + S1.size a ≤ S24.size a
  inb_S24x32x512_S1x32x512_7_0_0 : ∀ a, (![7, 0, 0] : Fin 3 → Nat) a + S1x32x512.size a ≤ S24x32x512.size a
  h_S1x32x512 : 0 < S1x32x512.numel
  shapeCasts_S1x32x512_S32x512 : S1x32x512.ShapeCasts S32x512
  h_S32x512 : 0 < S32x512.numel
  inb_S24_S1_8 : ∀ a, (![8] : Fin 1 → Nat) a + S1.size a ≤ S24.size a
  inb_S24x32x512_S1x32x512_8_0_0 : ∀ a, (![8, 0, 0] : Fin 3 → Nat) a + S1x32x512.size a ≤ S24x32x512.size a
  inb_S24_S1_12 : ∀ a, (![12] : Fin 1 → Nat) a + S1.size a ≤ S24.size a
  inb_S24x32x512_S1x32x512_12_0_0 : ∀ a, (![12, 0, 0] : Fin 3 → Nat) a + S1x32x512.size a ≤ S24x32x512.size a
  inb_S24_S1_9 : ∀ a, (![9] : Fin 1 → Nat) a + S1.size a ≤ S24.size a
  inb_S24x32x512_S1x32x512_9_0_0 : ∀ a, (![9, 0, 0] : Fin 3 → Nat) a + S1x32x512.size a ≤ S24x32x512.size a
  inb_S24_S1_13 : ∀ a, (![13] : Fin 1 → Nat) a + S1.size a ≤ S24.size a
  inb_S24x32x512_S1x32x512_13_0_0 : ∀ a, (![13, 0, 0] : Fin 3 → Nat) a + S1x32x512.size a ≤ S24x32x512.size a
  inb_S24_S1_10 : ∀ a, (![10] : Fin 1 → Nat) a + S1.size a ≤ S24.size a
  inb_S24x32x512_S1x32x512_10_0_0 : ∀ a, (![10, 0, 0] : Fin 3 → Nat) a + S1x32x512.size a ≤ S24x32x512.size a
  inb_S24_S1_14 : ∀ a, (![14] : Fin 1 → Nat) a + S1.size a ≤ S24.size a
  inb_S24x32x512_S1x32x512_14_0_0 : ∀ a, (![14, 0, 0] : Fin 3 → Nat) a + S1x32x512.size a ≤ S24x32x512.size a
  inb_S24_S1_11 : ∀ a, (![11] : Fin 1 → Nat) a + S1.size a ≤ S24.size a
  inb_S24x32x512_S1x32x512_11_0_0 : ∀ a, (![11, 0, 0] : Fin 3 → Nat) a + S1x32x512.size a ≤ S24x32x512.size a
  inb_S24_S1_15 : ∀ a, (![15] : Fin 1 → Nat) a + S1.size a ≤ S24.size a
  inb_S24x32x512_S1x32x512_15_0_0 : ∀ a, (![15, 0, 0] : Fin 3 → Nat) a + S1x32x512.size a ≤ S24x32x512.size a
  shapeCasts_S32x512_S32x512 : S32x512.ShapeCasts S32x512
  inb_S24_S1_16 : ∀ a, (![16] : Fin 1 → Nat) a + S1.size a ≤ S24.size a
  inb_S24x32x512_S1x32x512_16_0_0 : ∀ a, (![16, 0, 0] : Fin 3 → Nat) a + S1x32x512.size a ≤ S24x32x512.size a
  inb_S24_S1_20 : ∀ a, (![20] : Fin 1 → Nat) a + S1.size a ≤ S24.size a
  inb_S24x32x512_S1x32x512_20_0_0 : ∀ a, (![20, 0, 0] : Fin 3 → Nat) a + S1x32x512.size a ≤ S24x32x512.size a
  inb_S24_S1_17 : ∀ a, (![17] : Fin 1 → Nat) a + S1.size a ≤ S24.size a
  inb_S24x32x512_S1x32x512_17_0_0 : ∀ a, (![17, 0, 0] : Fin 3 → Nat) a + S1x32x512.size a ≤ S24x32x512.size a
  inb_S24_S1_21 : ∀ a, (![21] : Fin 1 → Nat) a + S1.size a ≤ S24.size a
  inb_S24x32x512_S1x32x512_21_0_0 : ∀ a, (![21, 0, 0] : Fin 3 → Nat) a + S1x32x512.size a ≤ S24x32x512.size a
  inb_S24_S1_18 : ∀ a, (![18] : Fin 1 → Nat) a + S1.size a ≤ S24.size a
  inb_S24x32x512_S1x32x512_18_0_0 : ∀ a, (![18, 0, 0] : Fin 3 → Nat) a + S1x32x512.size a ≤ S24x32x512.size a
  inb_S24_S1_22 : ∀ a, (![22] : Fin 1 → Nat) a + S1.size a ≤ S24.size a
  inb_S24x32x512_S1x32x512_22_0_0 : ∀ a, (![22, 0, 0] : Fin 3 → Nat) a + S1x32x512.size a ≤ S24x32x512.size a
  inb_S24_S1_19 : ∀ a, (![19] : Fin 1 → Nat) a + S1.size a ≤ S24.size a
  inb_S24x32x512_S1x32x512_19_0_0 : ∀ a, (![19, 0, 0] : Fin 3 → Nat) a + S1x32x512.size a ≤ S24x32x512.size a
  inb_S24_S1_23 : ∀ a, (![23] : Fin 1 → Nat) a + S1.size a ≤ S24.size a
  inb_S24x32x512_S1x32x512_23_0_0 : ∀ a, (![23, 0, 0] : Fin 3 → Nat) a + S1x32x512.size a ≤ S24x32x512.size a
  hcc0_scratch1 : 2 + S24.numel ≤ 50
  hcc0_scratch2 : 26 + S24.numel ≤ 50
  k0_dev1_lt : ∀ d0 : Dev nD, (k0_dev1 d0) < nD
  k0_dev2_lt : ∀ d0 : Dev nD, (k0_dev2 d0) < nD
  k0_off1_inb : ∀ d0 : Dev nD, ∀ (r : Fin 4), ∀ a, (k0_off1 d0 (BitVec.ofNat 32 (32 * r.val))) a + S1x32x512.size a ≤ S1x512x512.size a
  k0_dev3_lt : ∀ d0 : Dev nD, (k0_dev3 d0) < nD
  k0_off2_inb : ∀ d0 : Dev nD, ∀ (r : Fin 4), ∀ a, (k0_off2 d0 (BitVec.ofNat 32 (32 * r.val))) a + S1x32x512.size a ≤ S1x512x512.size a
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_off3_inb : ∀ d0 : Dev nD, ∀ (r : Fin 4), ∀ a, (k0_off3 d0 (BitVec.ofNat 32 (32 * r.val))) a + S1x32x512.size a ≤ S1x512x512.size a
  k0_off4_inb : ∀ d0 : Dev nD, ∀ (r : Fin 4), ∀ a, (k0_off4 d0 (BitVec.ofNat 32 (32 * r.val))) a + S32x512.size a ≤ S512x512.size a
  k0_off5_inb : ∀ d0 : Dev nD, ∀ (r : Fin 4), ∀ a, (k0_off5 d0 (BitVec.ofNat 32 (32 * r.val))) a + S32x512.size a ≤ S512x512.size a
  k0_dev11_lt : ∀ d0 : Dev nD, (k0_dev11 d0) < nD
  k0_off6_inb : ∀ d0 : Dev nD, ∀ (r : Fin 4), ∀ a, (k0_off6 d0 (BitVec.ofNat 32 (32 * r.val))) a + S1x32x512.size a ≤ S1x512x512.size a
  k0_off7_inb : ∀ d0 : Dev nD, ∀ (r : Fin 4), ∀ a, (k0_off7 d0 (BitVec.ofNat 32 (32 * r.val))) a + S32x512.size a ≤ S512x512.size a
  k0_off8_inb : ∀ d0 : Dev nD, ∀ (r : Fin 4), ∀ a, (k0_off8 d0 (BitVec.ofNat 32 (32 * r.val))) a + S32x512.size a ≤ S512x512.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_off9_inb : ∀ d0 : Dev nD, ∀ (r : Fin 4), ∀ a, (k0_off9 d0 (BitVec.ofNat 32 (32 * r.val))) a + S32x512.size a ≤ S512x512.size a
  k0_off10_inb : ∀ d0 : Dev nD, ∀ (r : Fin 4), ∀ a, (k0_off10 d0 (BitVec.ofNat 32 (32 * r.val))) a + S32x512.size a ≤ S512x512.size a
  hstage0_0 : ∀ j, (stage0_0 j).IsWhole
  hstage0_1 : ∀ j, (stage0_1 j).IsWhole

variable [Facts₀]

abbrev cc0_scratch1 : DmaSems sig S24 := SemArray.consecutive 2 S24 hcc0_scratch1
abbrev cc0_scratch2 : DmaSems sig S24 := SemArray.consecutive 26 S24 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S_ : Shape := ⟨0, ![]⟩
abbrev S512x512 : Shape := ⟨2, ![512, 512]⟩

abbrev nBuf : Space → Nat
  | .hbm => 3
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S_, .f32⟩
  | .hbm, ⟨2, _⟩ => ⟨S512x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S4x512x512_S512x512_d0 : S4x512x512.ReducesTo [0] S512x512
  h_S_ : 0 < S_.numel

variable [Facts₀]

class Facts : Prop extends Facts₀ where

variable [Facts]
-- ==== Proof.RefValue.lean ====
import proofs.«900333_g7700000000000334_dist_treered_v7x_i4_m512_n512_f32_1_alg».proof.Defs
import proofs.«900333_g7700000000000334_dist_treered_v7x_i4_m512_n512_f32_1_alg».proof.Proof.Gen.ReferenceIdeal
import proofs.«900333_g7700000000000334_dist_treered_v7x_i4_m512_n512_f32_1_alg».proof.Proof.Gen.ReferenceIdeal.Run
import proofs.«900333_g7700000000000334_dist_treered_v7x_i4_m512_n512_f32_1_alg».proof.Proof.Gen.ReferenceIdeal.Read
import Idealize.ShloMosaic.Lib.ValueIdx
import Idealize.ShloMosaic.Lib.Layout
import Idealize.ShloMosaic.PureOps.Ideal.Laws

noncomputable section

namespace Cert.ReferenceIdeal.RefValue

open Idealize.ShloMosaic Idealize.SL.Sem
open Cert.ReferenceIdeal.Gen Idealize.ShloMosaic.ValueIdx
open scoped BigOperators

theorem frame_ri [Cert.Pre_finite_inputs_ReferenceIdeal.Facts] : Cert.frame_ReferenceIdeal :=
  fun m ρ _ => (θ_run Cert.ReferenceIdeal.defs _ _).mono (fun _ h c => (h c).2)
    (Cert.ReferenceIdeal.Value.run (F := Ideal) m ρ)

def xw4 (xw : (⟨Cert.ReferenceIdeal.S4x512x512, .f32⟩ : BufTy).Contents (Elt Ideal)) (d : Fin 4) (r k : Fin 512) : EReal :=
  xw (ix3 d r k)

theorem idx_main_v0_ix (r k : Fin 512) (d : Fin 4) :
    Cert.ReferenceIdeal.Read.idx_main_v0 (ix2 r k) d = ix3 d r k := by
  funext a
  match a with
  | ⟨0, _⟩ => rfl
  | ⟨1, _⟩ => rfl
  | ⟨2, _⟩ => rfl

/-- The reduction over the first axis, at one index, is the four entries added to zero. -/
theorem ref_apply (xw : (⟨Cert.ReferenceIdeal.S4x512x512, .f32⟩ : BufTy).Contents (Elt Ideal)) (r k : Fin 512) :
    Host.reduceAdd (F := Ideal) xw (constant Cert.ReferenceIdeal.S_ .f32 0x00000000#32)
        reducesTo_S4x512x512_S512x512_d0 h_S_ (ix2 r k)
      = xw4 xw 0 r k + xw4 xw 1 r k + xw4 xw 2 r k + xw4 xw 3 r k := by
  rw [Cert.ReferenceIdeal.Read.val_main_v0_eq, Cert.ReferenceIdeal.Read.val_main_v0_apply,
    Cert.ReferenceIdeal.Read.val_main_cst_apply, Fin.sum_univ_four]
  simp only [idx_main_v0_ix]
  show Ideal.ofBits .f32 0x00000000#32 + _ = _
  rw [Ideal.ofBits_zero_f32, zero_add]
  rfl

/-- Entry `(r, k)` of device `c`'s block is entry `(c, r, k)` of the whole array. -/
theorem block_apply (xw : (⟨Cert.ReferenceIdeal.S4x512x512, .f32⟩ : BufTy).Contents (Elt Ideal))
    (c : Dev Cert.KernelIdeal.nD) (r k : Fin 512) :
    (Layout.block ⟨3, ![1, 512, 512]⟩ ⟨3, ![4, 512, 512]⟩ 0 4 c xw) (ix3 (0 : Fin 1) r k) = xw4 xw c r k := by
  unfold xw4
  rw [Layout.block_apply]
  refine congrArg xw (funext fun a => Fin.ext ?_)
  rw [Layout.Tiles.idx_val]
  match a with
  | ⟨0, _⟩ => simp
  | ⟨1, _⟩ => rfl
  | ⟨2, _⟩ => rfl

end Cert.ReferenceIdeal.RefValue

end
-- ==== Proof.Mesh.lean ====
import proofs.«900333_g7700000000000334_dist_treered_v7x_i4_m512_n512_f32_1_alg».proof.Proof.Gen.KernelIdeal

noncomputable section

namespace Cert.KernelIdeal.Tree

open Cert.KernelIdeal Cert.KernelIdeal.Gen Idealize.ShloMosaic Idealize.SL.Sem

/-- The partner whose index differs in the low bit. -/
def p1 (c : Dev nD) : Dev nD := (![1, 0, 3, 2] : Fin 4 → Fin 4) c
/-- The partner at the mirrored index `3 - c`. -/
def p2 (c : Dev nD) : Dev nD := (![3, 2, 1, 0] : Fin 4 → Fin 4) c

def hA (c : Dev nD) : ℕ := (![0, 1, 1, 0] : Fin 4 → ℕ) c
def hB (c : Dev nD) : ℕ := (![0, 0, 1, 1] : Fin 4 → ℕ) c

/-- Which quarter (0 or 1) of the half `blk` of the rows device `c` keeps. -/
def hK (c : Dev nD) (blk : Fin 2) : ℕ := if blk = 0 then hA c else hB c

/-- The 32-row chunk of half `blk` that `c` keeps and accumulates into, piece `ch` of four. -/
def keepCh (c : Dev nD) (blk : Fin 2) (ch : Fin 4) : ℕ := 8 * blk.val + 4 * hK c blk + ch.val
/-- The chunk `c` gives away in round 0 and receives back, finished, in round 2. -/
def sendCh (c : Dev nD) (blk : Fin 2) (ch : Fin 4) : ℕ := 8 * blk.val + 4 * (1 - hK c blk) + ch.val

/-- The partner in round `rnd`: half 0 goes `p1, p2, p1` over the rounds, half 1 `p2, p1, p2`. -/
def pt (c : Dev nD) (rnd : Fin 3) (blk : Fin 2) : Dev nD := if (rnd.val + blk.val) % 2 = 0 then p1 c else p2 c

/-- The receive slot of round `rnd`, half `blk`, piece `ch`. -/
def slot (rnd : Fin 3) (blk : Fin 2) (ch : Fin 4) : ℕ := (rnd.val * 2 + blk.val) * 4 + ch.val

theorem keepCh_lt (c : Dev nD) (blk : Fin 2) (ch : Fin 4) : keepCh c blk ch < 16 := by
  revert c blk ch; decide
theorem sendCh_lt (c : Dev nD) (blk : Fin 2) (ch : Fin 4) : sendCh c blk ch < 16 := by
  revert c blk ch; decide
theorem slot_lt (rnd : Fin 3) (blk : Fin 2) (ch : Fin 4) : slot rnd blk ch < 24 := by
  revert rnd blk ch; decide

theorem p1_p1 (c : Dev nD) : p1 (p1 c) = c := by revert c; decide
theorem p2_p2 (c : Dev nD) : p2 (p2 c) = c := by revert c; decide
theorem pt_pt (c : Dev nD) (rnd : Fin 3) (blk : Fin 2) : pt (pt c rnd blk) rnd blk = c := by
  revert c rnd blk; decide

end Cert.KernelIdeal.Tree

end
-- ==== Proof.Basic.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

def s₀ : MemSt nD τ sig (Elt F) := ⟨m, fun _ => 0, ρ⟩

def keepF (c : Dev nD) (blk : Fin 2) (ch : Fin 4) : Fin 16 := ⟨keepCh c blk ch, keepCh_lt c blk ch⟩
def sendF (c : Dev nD) (blk : Fin 2) (ch : Fin 4) : Fin 16 := ⟨sendCh c blk ch, sendCh_lt c blk ch⟩
def slotF (rnd : Fin 3) (blk : Fin 2) (ch : Fin 4) : Fin 24 := ⟨slot rnd blk ch, slot_lt rnd blk ch⟩

abbrev xM : Memref sig .tc .vmem S1x512x512 .f32 := Memref.whole cc0_stg0_0
abbrev oM : Memref sig .tc .vmem S512x512 .f32 := Memref.whole cc0_stg1_0
abbrev rM : Memref sig .tc .vmem S24x32x512 .f32 := Memref.whole cc0_scratch0

theorem xin (j : Fin 16) : ∀ a, (![0, 32 * j.val, 0] : Fin 3 → Nat) a + S1x32x512.size a ≤ S1x512x512.size a := by
  intro a; fin_cases a <;> simp <;> omega
theorem oin (j : Fin 16) : ∀ a, (![32 * j.val, 0] : Fin 2 → Nat) a + S32x512.size a ≤ S512x512.size a := by
  intro a; fin_cases a <;> simp <;> omega
theorem rin (n : Fin 24) : ∀ a, (![n.val, 0, 0] : Fin 3 → Nat) a + S1x32x512.size a ≤ S24x32x512.size a := by
  intro a; fin_cases a <;> simp <;> omega

abbrev xS (j : Fin 16) : Memref sig .tc .vmem S1x32x512 .f32 :=
  xM.slice (Rect.unit (s := S1x512x512) ![0, 32 * j.val, 0] S1x32x512.size (xin j)) (fun _ => rfl)
abbrev xQ (j : Fin 16) : Memref sig .tc .vmem S32x512 .f32 := (xS j).squeeze S32x512 squeezes_S1x32x512_S32x512
abbrev oS (j : Fin 16) : Memref sig .tc .vmem S32x512 .f32 :=
  oM.slice (Rect.unit (s := S512x512) ![32 * j.val, 0] S32x512.size (oin j)) (fun _ => rfl)
abbrev rS (n : Fin 24) : Memref sig .tc .vmem S1x32x512 .f32 :=
  rM.slice (Rect.unit (s := S24x32x512) ![n.val, 0, 0] S1x32x512.size (rin n)) (fun _ => rfl)
abbrev rQ (n : Fin 24) : Memref sig .tc .vmem S32x512 .f32 := (rS n).squeeze S32x512 squeezes_S1x32x512_S32x512

abbrev barS : Sem sig := (SemArray.scalar (sig.barrier 0 rfl) : Sems sig S_).sem
def sendSem (n : Fin 24) : DmaSem sig := ⟨2 + n.val, by have := n.isLt; show 2 + n.val < 50; omega⟩
def recvSem (n : Fin 24) : DmaSem sig := ⟨26 + n.val, by have := n.isLt; show 26 + n.val < 50; omega⟩

abbrev barCell (c : Dev nD) : GSem nD τ sig := ((c : Thread nD τ), .reg barS)
abbrev sendCell (c : Dev nD) (n : Fin 24) : GSem nD τ sig := ((c : Thread nD τ), .dma (sendSem n))
abbrev recvCell (c : Dev nD) (n : Fin 24) : GSem nD τ sig := ((c : Thread nD τ), .dma (recvSem n))

abbrev N : ℕ := (rQ 0 : Memref sig .tc .vmem S32x512 .f32).view.dmaCredit
theorem N_pos : 0 < N := View.dmaCredit_pos _ (by decide)

def xstg (c : Dev nD) : (cc0_stg0_0 : Ref sig .tc).ty.Contents (Elt F) :=
  (win0_0.blk (0 : Fin 1)).view.read (Elt F) ((s₀ m ρ).mem ((c : Thread nD τ).loc main_arg0))

def xq (c : Dev nD) (j : Fin 16) : FVec F S32x512 .f32 := (xQ j).view.read (Elt F) (xstg m ρ c)
def xv (c : Dev nD) (j : Fin 16) : Vec F S1x32x512 .f32 := (xS j).view.read (Elt F) (xstg m ρ c)

/-- After round 0: the kept chunk plus the partner's copy of the same rows. -/
def a0 (c : Dev nD) (blk : Fin 2) (ch : Fin 4) : FVec F S32x512 .f32 :=
  addf (xq m ρ c (keepF c blk ch)) (xq m ρ (pt c 0 blk) (sendF (pt c 0 blk) blk ch))
/-- After round 1: round-1 partners keep the same rows, so this is the sum over all four devices. -/
def a1 (c : Dev nD) (blk : Fin 2) (ch : Fin 4) : FVec F S32x512 .f32 :=
  addf (a0 m ρ c blk ch) (a0 m ρ (pt c 1 blk) blk ch)

/-- What lands in `c`'s slot in round `rnd`. -/
def rv (c : Dev nD) (rnd : Fin 3) (blk : Fin 2) (ch : Fin 4) : FVec F S32x512 .f32 :=
  match rnd with
  | 0 => xq m ρ (pt c 0 blk) (sendF (pt c 0 blk) blk ch)
  | 1 => a0 m ρ (pt c 1 blk) blk ch
  | 2 => a1 m ρ (pt c 2 blk) blk ch

/-- What `c` sends in round `rnd`. -/
def sv (c : Dev nD) (rnd : Fin 3) (blk : Fin 2) (ch : Fin 4) : FVec F S32x512 .f32 :=
  match rnd with
  | 0 => xq m ρ c (sendF c blk ch)
  | 1 => a0 m ρ c blk ch
  | 2 => a1 m ρ c blk ch

def srcM (c : Dev nD) (rnd : Fin 3) (blk : Fin 2) (ch : Fin 4) : Memref sig .tc .vmem S32x512 .f32 :=
  match rnd with
  | 0 => xQ (sendF c blk ch)
  | 1 => oS (keepF c blk ch)
  | 2 => oS (keepF c blk ch)

/-- The partner relation is an involution, so what is sent is what the partner is to receive. -/
theorem sv_eq_rv (c : Dev nD) (rnd : Fin 3) (blk : Fin 2) (ch : Fin 4) :
    sv m ρ c rnd blk ch = rv m ρ (pt c rnd blk) rnd blk ch := by
  match rnd with
  | 0 => show xq m ρ c (sendF c blk ch) = xq m ρ (pt (pt c 0 blk) 0 blk) (sendF (pt (pt c 0 blk) 0 blk) blk ch); rw [pt_pt]
  | 1 => show a0 m ρ c blk ch = a0 m ρ (pt (pt c 1 blk) 1 blk) blk ch; rw [pt_pt]
  | 2 => show a1 m ρ c blk ch = a1 m ρ (pt (pt c 2 blk) 2 blk) blk ch; rw [pt_pt]

end Cert.KernelIdeal.Tree

end
-- ==== Proof.Out.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Basic
import Idealize.ShloMosaic.Lib.ValueIdx
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

def blkC (j : Fin 16) : Fin 2 := ⟨j.val / 8, by have := j.isLt; omega⟩
def qtrC (j : Fin 16) : ℕ := (j.val / 4) % 2
def chC (j : Fin 16) : Fin 4 := ⟨j.val % 4, Nat.mod_lt _ (by decide)⟩

/-- The final contents of chunk `j`: the device's own four-block sum on kept chunks, the round-2 partner's on the others. -/
def chunkVal (c : Dev nD) (j : Fin 16) : FVec F S32x512 .f32 :=
  if qtrC j = hK c (blkC j) then a1 m ρ c (blkC j) (chC j) else a1 m ρ (pt c 2 (blkC j)) (blkC j) (chC j)

theorem chunkVal_keep (c : Dev nD) (blk : Fin 2) (ch : Fin 4) : chunkVal m ρ c (keepF c blk ch) = a1 m ρ c blk ch := by
  have h1 : blkC (keepF c blk ch) = blk := by revert c blk ch; decide
  have h2 : chC (keepF c blk ch) = ch := by revert c blk ch; decide
  have h3 : qtrC (keepF c blk ch) = hK c blk := by revert c blk ch; decide
  unfold chunkVal; rw [h1, h2, h3, if_pos rfl]

theorem chunkVal_send (c : Dev nD) (blk : Fin 2) (ch : Fin 4) :
    chunkVal m ρ c (sendF c blk ch) = a1 m ρ (pt c 2 blk) blk ch := by
  have h1 : blkC (sendF c blk ch) = blk := by revert c blk ch; decide
  have h2 : chC (sendF c blk ch) = ch := by revert c blk ch; decide
  have h3 : qtrC (sendF c blk ch) ≠ hK c blk := by revert c blk ch; decide
  unfold chunkVal; rw [h1, h2, if_neg h3]

/-- The final result block, row `32 j + r` read from chunk `j`. -/
def outF (c : Dev nD) : (cc0_stg1_0 : Ref sig .tc).ty.Contents (Elt F) :=
  fun i => chunkVal m ρ c ⟨(i 0).val / 32, by have : (i 0).val < 512 := (i 0).isLt; omega⟩
    (ValueIdx.ix2 (⟨(i 0).val % 32, Nat.mod_lt _ (by decide)⟩ : Fin 32) (⟨(i 1).val, (i 1).isLt⟩ : Fin 512))

end Cert.KernelIdeal.Tree

end
-- ==== Proof.Value.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Basic
import proofs.«900333_g7700000000000334_dist_treered_v7x_i4_m512_n512_f32_1_alg».proof.Proof.Out
import Idealize.ShloMosaic.Lib.ValueIdx
import Idealize.ShloMosaic.Lib.ValueLayout
import Idealize.ShloMosaic.Lib.Pipeline.Value
import Idealize.ShloMosaic.PureOps.Ideal.Laws
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

def X (m : (ℓ : Loc nD τ sig) → Buf (Elt Ideal) ℓ) (ρ : Dev nD → PrngReg) (d : Dev nD) (r k : Fin 512) : EReal :=
  m ((d : Thread nD τ).loc main_arg0) (ix3 (0 : Fin 1) r k)

theorem xstg_eq (m : (ℓ : Loc nD τ sig) → Buf (Elt Ideal) ℓ) (ρ : Dev nD → PrngReg) (c : Dev nD) :
    xstg (F := Ideal) m ρ c = m ((c : Thread nD τ).loc main_arg0) := by
  funext x
  unfold xstg
  rw [View.read_apply]
  show m (c.tc.loc main_arg0) ((win0_0.blk (0 : Fin 1)).view.emb x) = m (c.tc.loc main_arg0) x
  refine congrArg (m (c.tc.loc main_arg0)) (funext fun a => Fin.ext ?_)
  show (0 : ℕ) * _ + 1 * (x a).val = (x a).val
  rw [Nat.zero_mul, Nat.zero_add, Nat.one_mul]

theorem xq_apply (m : (ℓ : Loc nD τ sig) → Buf (Elt Ideal) ℓ) (ρ : Dev nD → PrngReg) (c : Dev nD) (j : Fin 16)
    (rr : Fin 32) (k : Fin 512) :
    xq m ρ c j (ix2 rr k) = X m ρ c ⟨32 * j.val + rr.val, by have := j.isLt; have := rr.isLt; omega⟩ k := by
  unfold xq X
  rw [xstg_eq, View.read_apply]
  show m (c.tc.loc main_arg0) ((xQ j).view.emb (ix2 rr k)) = _
  refine congrArg (m (c.tc.loc main_arg0)) ?_
  have h1 : (xQ j).view.emb (ix2 rr k)
      = (Rect.unit (s := S1x512x512) ![0, 32 * j.val, 0] S1x32x512.size (xin j)).emb
          (Shape.reshapeEquiv (s := ⟨3, ![1, 32, 512]⟩) (s' := ⟨2, ![32, 512]⟩) squeezes_S1x32x512_S32x512.numel_eq (ix2 rr k)) := rfl
  rw [h1, reshapeEquiv_ix2_1ab]
  funext a
  apply Fin.ext
  rw [Rect.emb_apply]
  match a with
  | ⟨0, _⟩ => rfl
  | ⟨1, _⟩ => show 32 * j.val + 1 * rr.val = 32 * j.val + rr.val; rw [Nat.one_mul]
  | ⟨2, _⟩ => show 0 + 1 * k.val = k.val; rw [Nat.one_mul, Nat.zero_add]

/-- A sum of four extended reals, paired in any order, is the sum in index order: addition is commutative and associative. -/
theorem four_sum_idx (x : Fin 4 → EReal) (i0 i1 i2 i3 : Fin 4) (hi : Function.Bijective ![i0, i1, i2, i3]) :
    (x i0 + x i1) + (x i2 + x i3) = x 0 + x 1 + x 2 + x 3 := by
  have h := Equiv.sum_comp (Equiv.ofBijective ![i0, i1, i2, i3] hi) x
  rw [Fin.sum_univ_four, Fin.sum_univ_four] at h
  exact (add_assoc _ _ _).symm.trans h

theorem keep_chunks (c : Dev nD) (blk : Fin 2) (ch : Fin 4) :
    sendF (pt c 0 blk) blk ch = keepF c blk ch ∧ keepF (pt c 1 blk) blk ch = keepF c blk ch
      ∧ sendF (pt (pt c 1 blk) 0 blk) blk ch = keepF c blk ch := by
  revert c blk ch; decide

/-- A device, its round-0 partner, its round-1 partner and that partner's round-0 partner are the four devices. -/
theorem devs_bijective (c : Dev nD) (blk : Fin 2) :
    Function.Bijective (![c, pt c 0 blk, pt c 1 blk, pt (pt c 1 blk) 0 blk] : Fin 4 → Fin 4) := by
  revert c blk; decide

/-- Entry by entry the round-1 value is the sum of the four devices' inputs at the kept chunk's row. -/
theorem a1_apply (m : (ℓ : Loc nD τ sig) → Buf (Elt Ideal) ℓ) (ρ : Dev nD → PrngReg) (c : Dev nD) (blk : Fin 2)
    (ch : Fin 4) (rr : Fin 32) (k : Fin 512) :
    a1 m ρ c blk ch (ix2 rr k)
      = X m ρ 0 ⟨32 * (keepF c blk ch).val + rr.val, by have := (keepF c blk ch).isLt; have := rr.isLt; omega⟩ k
        + X m ρ 1 ⟨32 * (keepF c blk ch).val + rr.val, by have := (keepF c blk ch).isLt; have := rr.isLt; omega⟩ k
        + X m ρ 2 ⟨32 * (keepF c blk ch).val + rr.val, by have := (keepF c blk ch).isLt; have := rr.isLt; omega⟩ k
        + X m ρ 3 ⟨32 * (keepF c blk ch).val + rr.val, by have := (keepF c blk ch).isLt; have := rr.isLt; omega⟩ k := by
  obtain ⟨h1, h2, h3⟩ := keep_chunks c blk ch
  unfold a1 a0
  rw [addf_apply, addf_apply, addf_apply, xq_apply, xq_apply, xq_apply, xq_apply]
  simp only [h1, h2, h3]
  exact four_sum_idx (fun d => X m ρ d ⟨32 * (keepF c blk ch).val + rr.val, by have := (keepF c blk ch).isLt; have := rr.isLt; omega⟩ k)
    _ _ _ _ (devs_bijective c blk)

theorem chunk_keep (c : Dev nD) (j : Fin 16) (h : qtrC j = hK c (blkC j)) : keepF c (blkC j) (chC j) = j := by
  revert c j; decide
theorem chunk_send (c : Dev nD) (j : Fin 16) (h : ¬ qtrC j = hK c (blkC j)) :
    keepF (pt c 2 (blkC j)) (blkC j) (chC j) = j := by
  revert c j; decide

theorem chunkVal_apply (m : (ℓ : Loc nD τ sig) → Buf (Elt Ideal) ℓ) (ρ : Dev nD → PrngReg) (c : Dev nD) (j : Fin 16)
    (rr : Fin 32) (k : Fin 512) :
    chunkVal m ρ c j (ix2 rr k)
      = X m ρ 0 ⟨32 * j.val + rr.val, by have := j.isLt; have := rr.isLt; omega⟩ k
        + X m ρ 1 ⟨32 * j.val + rr.val, by have := j.isLt; have := rr.isLt; omega⟩ k
        + X m ρ 2 ⟨32 * j.val + rr.val, by have := j.isLt; have := rr.isLt; omega⟩ k
        + X m ρ 3 ⟨32 * j.val + rr.val, by have := j.isLt; have := rr.isLt; omega⟩ k := by
  unfold chunkVal
  by_cases h : qtrC j = hK c (blkC j)
  · rw [if_pos h, a1_apply]; simp only [chunk_keep c j h]
  · rw [if_neg h, a1_apply]; simp only [chunk_send c j h]

/-- Every entry of every device's result is the sum of the four input blocks' entries. -/
theorem outF_apply (m : (ℓ : Loc nD τ sig) → Buf (Elt Ideal) ℓ) (ρ : Dev nD → PrngReg) (c : Dev nD) (r k : Fin 512) :
    outF m ρ c (ix2 r k) = X m ρ 0 r k + X m ρ 1 r k + X m ρ 2 r k + X m ρ 3 r k := by
  unfold outF
  show chunkVal m ρ c ⟨r.val / 32, _⟩ (ix2 ⟨r.val % 32, _⟩ k) = _
  rw [chunkVal_apply]
  have hr : ∀ (h : 32 * (r.val / 32) + r.val % 32 < 512), (⟨32 * (r.val / 32) + r.val % 32, h⟩ : Fin 512) = r :=
    fun h => Fin.ext (Nat.div_add_mod r.val 32)
  simp only [hr]

end Cert.KernelIdeal.Tree

end
-- ==== Proof.Sched.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Basic
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

def rndOf (n : Fin 24) : Fin 3 := ⟨n.val / 8, by have := n.isLt; omega⟩
def blkOf (n : Fin 24) : Fin 2 := ⟨(n.val / 4) % 2, Nat.mod_lt _ (by decide)⟩
def chOf (n : Fin 24) : Fin 4 := ⟨n.val % 4, Nat.mod_lt _ (by decide)⟩

theorem rndOf_slotF (rnd : Fin 3) (blk : Fin 2) (ch : Fin 4) : rndOf (slotF rnd blk ch) = rnd := by revert rnd blk ch; decide
theorem blkOf_slotF (rnd : Fin 3) (blk : Fin 2) (ch : Fin 4) : blkOf (slotF rnd blk ch) = blk := by revert rnd blk ch; decide
theorem chOf_slotF (rnd : Fin 3) (blk : Fin 2) (ch : Fin 4) : chOf (slotF rnd blk ch) = ch := by revert rnd blk ch; decide

def ptS (c : Dev nD) (n : Fin 24) : Dev nD := pt c (rndOf n) (blkOf n)
theorem ptS_ptS (c : Dev nD) (n : Fin 24) : ptS (ptS c n) n = c := pt_pt c _ _
theorem ptS_slotF (c : Dev nD) (rnd : Fin 3) (blk : Fin 2) (ch : Fin 4) : ptS c (slotF rnd blk ch) = pt c rnd blk := by
  unfold ptS; rw [rndOf_slotF, blkOf_slotF]

def bkOf (rnd : Fin 3) (d : Bool) : Fin 2 := if d then ⟨(rnd.val + 1) % 2, Nat.mod_lt _ (by decide)⟩ else ⟨rnd.val % 2, Nat.mod_lt _ (by decide)⟩

theorem pt_bkOf (c : Dev nD) (rnd : Fin 3) (d : Bool) : pt c rnd (bkOf rnd d) = if d then p2 c else p1 c := by
  revert c rnd d; decide

def recvPay (c : Dev nD) (n : Fin 24) : sProp 𝕄 := ownsTc c (rQ n) fullShare (rv m ρ c (rndOf n) (blkOf n) (chOf n))
def sendPay (c : Dev nD) (n : Fin 24) : sProp 𝕄 :=
  ownsTc c (srcM c (rndOf n) (blkOf n) (chOf n)) fullShare (sv m ρ c (rndOf n) (blkOf n) (chOf n))
def slotGift (s : Dev nD) (n : Fin 24) : sProp 𝕄 :=
  iprop((∃ W, ownsTc s (rQ n) fullShare W) ∗ reached ER (recvCell s n) 0)
def barPay (c : Dev nD) (d : Bool) : sProp 𝕄 :=
  bigSep Finset.univ fun rc : Fin 3 × Fin 4 => slotGift (pt c rc.1 (bkOf rc.1 d)) (slotF rc.1 (bkOf rc.1 d) rc.2)

abbrev IsBar (g : GSem nD τ sig) : Prop := g.1.2 = .tc ∧ g.2 = .reg barS
abbrev IsXfer (g : GSem nD τ sig) : Prop := g.1.2 = .tc ∧ ∃ q : DmaSem sig, g.2 = .dma q ∧ 2 ≤ q.val

def dmaPay (c : Dev nD) (q : DmaSem sig) : sProp 𝕄 :=
  if h : 26 ≤ q.val then recvPay m ρ c ⟨q.val - 26, by have h50 : q.val < 50 := q.isLt; show q.val - 26 < 24; omega⟩
  else if h2 : 2 ≤ q.val then sendPay m ρ c ⟨q.val - 2, by have h50 : q.val < 50 := q.isLt; show q.val - 2 < 24; omega⟩
  else iprop(emp)

def treeRd : Rounds.Schedule (GSem nD τ sig) Bool 𝕄 where
  duties g r := if r = 0 ∧ IsBar g then Finset.univ else if r = 0 ∧ IsXfer g then {false} else ∅
  unitless _ := False
  amount g _ _ := if g.2 = .reg barS then 1 else N
  payload g _ d :=
    match g.2 with
    | .reg s => if s = barS then barPay g.1.1 d else iprop(emp)
    | .dma q => dmaPay m ρ g.1.1 q
  amount_pos g _ _ _ := by
    by_cases h : g.2 = .reg barS
    · rw [if_pos h]; exact Nat.one_pos
    · rw [if_neg h]; exact N_pos

end Cert.KernelIdeal.Tree

end
-- ==== Proof.Ghost.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Sched
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

def csem (k : Fin 49) : SemLoc sig :=
  if k.val = 0 then .reg barS
  else if h : k.val ≤ 24 then .dma (sendSem ⟨k.val - 1, by omega⟩)
  else .dma (recvSem ⟨k.val - 25, by have := k.isLt; omega⟩)
abbrev kcell (ck : Dev nD × Fin 49) : GSem nD τ sig := ((ck.1 : Thread nD τ), csem ck.2)
def kB : Fin 49 := ⟨0, by decide⟩
def kS (n : Fin 24) : Fin 49 := ⟨1 + n.val, by have := n.isLt; omega⟩
def kR (n : Fin 24) : Fin 49 := ⟨25 + n.val, by have := n.isLt; omega⟩

theorem kcell_S (c : Dev nD) (n : Fin 24) : kcell (c, kS n) = sendCell c n := by
  have h1 : ¬ (kS n).val = 0 := by show ¬ 1 + n.val = 0; omega
  have h2 : (kS n).val ≤ 24 := by have := n.isLt; show 1 + n.val ≤ 24; omega
  show ((c : Thread nD τ), csem (kS n)) = _
  unfold csem; rw [if_neg h1, dif_pos h2]
  congr 3; exact Fin.ext (by show 1 + n.val - 1 = n.val; omega)
theorem kcell_R (c : Dev nD) (n : Fin 24) : kcell (c, kR n) = recvCell c n := by
  have h1 : ¬ (kR n).val = 0 := by show ¬ 25 + n.val = 0; omega
  have h2 : ¬ (kR n).val ≤ 24 := by show ¬ 25 + n.val ≤ 24; omega
  show ((c : Thread nD τ), csem (kR n)) = _
  unfold csem; rw [if_neg h1, dif_neg h2]
  congr 3; exact Fin.ext (by show 25 + n.val - 25 = n.val; omega)

def posSlot (p : Fin 24) : Fin 24 :=
  slotF ⟨p.val / 8, by have := p.isLt; omega⟩ ⟨p.val % 2, Nat.mod_lt _ (by decide)⟩ ⟨(p.val % 8) / 2, by omega⟩

def Ot (c : Dev nD) (k : ℕ) : CellTallies nD τ sig Unit :=
  ∑ p ∈ Finset.univ.filter (fun p : Fin 24 => k ≤ p.val), tallyAt (recvCell (ptS c (posSlot p)) (posSlot p)) () N

theorem Ot_succ (c : Dev nD) (k : ℕ) (hk : k < 24) :
    Ot c k = Ot c (k + 1) + tallyAt (recvCell (ptS c (posSlot ⟨k, hk⟩)) (posSlot ⟨k, hk⟩)) () N := by
  unfold Ot
  have hs : Finset.univ.filter (fun p : Fin 24 => k ≤ p.val) = insert ⟨k, hk⟩ (Finset.univ.filter (fun p : Fin 24 => k + 1 ≤ p.val)) := by
    ext p; simp only [Finset.mem_filter, Finset.mem_univ, true_and, Finset.mem_insert, Fin.ext_iff]; omega
  rw [hs, Finset.sum_insert (by simp), add_comm]

theorem Ot_done (c : Dev nD) : Ot c 24 = 0 := by
  unfold Ot
  have hs : Finset.univ.filter (fun p : Fin 24 => 24 ≤ p.val) = ∅ := by
    ext p; simp only [Finset.mem_filter, Finset.mem_univ, true_and, Finset.notMem_empty, iff_false]; have := p.isLt; omega
  rw [hs, Finset.sum_empty]

def O₁ (c : Dev nD) : CellTallies nD τ sig Unit := Ot c 0 + tallyAt (barCell (p2 c)) () 1
def O₀ (c : Dev nD) : CellTallies nD τ sig Unit := O₁ c + tallyAt (barCell (p1 c)) () 1

def L (g : GSem nD τ sig) : Finset Unit := if g.1.2 = .tc then {()} else ∅
def lvS (sm : SemLoc sig) : ℕ :=
  match sm with
  | .reg s => if s = barS then 1 else 0
  | .dma q => if 26 ≤ q.val then 2 + (q.val - 26) / 8 else 0
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

def invs (K : Dev nD × Fin 49 → ℕ) (c : Dev nD) : sProp 𝕄 :=
  iprop(cellInv ER (treeRd m ρ) (K (c, kB)) (barCell c)
    ∗ cellInv ER (treeRd m ρ) (K (p1 c, kB)) (barCell (p1 c)) ∗ cellInv ER (treeRd m ρ) (K (p2 c, kB)) (barCell (p2 c))
    ∗ bigSep Finset.univ fun n : Fin 24 =>
        iprop(cellInv ER (treeRd m ρ) (K (c, kS n)) (sendCell c n) ∗ cellInv ER (treeRd m ρ) (K (c, kR n)) (recvCell c n)
          ∗ cellInv ER (treeRd m ρ) (K (ptS c n, kR n)) (recvCell (ptS c n) n)))

instance invs_persistent (K : Dev nD × Fin 49 → ℕ) (c : Dev nD) : BI.Persistent (invs m ρ K c) := by unfold invs; infer_instance

def marks (c : Dev nD) : sProp 𝕄 :=
  iprop(reached ER (barCell (p1 c)) 0 ∗ reached ER (barCell (p2 c)) 0
    ∗ bigSep Finset.univ fun n : Fin 24 => iprop(reached ER (sendCell c n) 0 ∗ reached ER (recvCell c n) 0))

instance marks_persistent (c : Dev nD) : BI.Persistent (marks (F := F) c) := by unfold marks; infer_instance

def slotToks (c : Dev nD) (n : Fin 24) : sProp 𝕄 :=
  iprop(atPos ER (sendCell c n) 0 ∅ 0 ∗ atPos ER (recvCell c n) 0 ∅ 0
    ∗ dutyTok ER (sendCell c n) 0 false ∗ dutyTok ER (recvCell (ptS c n) n) 0 false)

def linear (c : Dev nD) : sProp 𝕄 :=
  iprop(atPos ER (barCell c) 0 ∅ 0 ∗ dutyTok ER (barCell (p1 c)) 0 false ∗ dutyTok ER (barCell (p2 c)) 0 true
    ∗ bigSep Finset.univ fun n : Fin 24 => slotToks c n)

def ghost (K : Dev nD × Fin 49 → ℕ) (c : Dev nD) : sProp 𝕄 := iprop(invs m ρ K c ∗ marks c ∗ linear c)

def creds (c : Dev nD) : sProp 𝕄 :=
  iprop(cred (tallyAt (barCell c) () 2) ∗ bigSep Finset.univ fun n : Fin 24 => cred (tallyAt (recvCell c n) () N))

def start (c : Dev nD) : sProp 𝕄 := iprop((∃ K, ghost m ρ K c) ∗ creds c ∗ levAts L lv)

end Cert.KernelIdeal.Tree

end
-- ==== Proof.Data.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Ghost
import proofs.«900333_g7700000000000334_dist_treered_v7x_i4_m512_n512_f32_1_alg».proof.Proof.Out
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def scrAny (c : Dev nD) : sProp 𝕄 := iprop(∃ f : Buf (Elt F) ((c : Thread nD τ).loc cc0_scratch0), ((c : Thread nD τ).loc cc0_scratch0) ↦{fullShare} f)

def Φ₀ (c : Dev nD) : sProp 𝕄 := iprop(start m ρ c ∗ scrAny c)
def Φ₁ (c : Dev nD) : sProp 𝕄 :=
  iprop(scrAny c ∗ bigSep Finset.univ fun n : Fin 24 => iprop(semVal (sendCell c n) 0 ∗ semVal (recvCell c n) 0))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outF m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

def osem (i : Fin 48) : SemLoc sig :=
  if h : i.val < 24 then .dma (sendSem ⟨i.val, h⟩) else .dma (recvSem ⟨i.val - 24, by have := i.isLt; omega⟩)

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ c ∗ (dats m ρ 0 c).owesAt () t₀.succ ∗ stg c cc0_stg0_0 (xstg m ρ c) ∗ stg c cc0_stg1_0 (outF m ρ c))

end Cert.KernelIdeal.Tree

end
-- ==== Proof.Claims.lean ====
import proofs.«900333_g7700000000000334_dist_treered_v7x_i4_m512_n512_f32_1_alg».proof.Defs
import proofs.«900333_g7700000000000334_dist_treered_v7x_i4_m512_n512_f32_1_alg».proof.Proof.RefValue
import proofs.«900333_g7700000000000334_dist_treered_v7x_i4_m512_n512_f32_1_alg».proof.Proof.Value
import proofs.«900333_g7700000000000334_dist_treered_v7x_i4_m512_n512_f32_1_alg».proof.Proof.Data
import proofs.«900333_g7700000000000334_dist_treered_v7x_i4_m512_n512_f32_1_alg».proof.Proof.Gen.Kernel
import proofs.«900333_g7700000000000334_dist_treered_v7x_i4_m512_n512_f32_1_alg».proof.Proof.Gen.KernelIdeal
import proofs.«900333_g7700000000000334_dist_treered_v7x_i4_m512_n512_f32_1_alg».proof.Proof.Gen.ReferenceIdeal
import proofs.«900333_g7700000000000334_dist_treered_v7x_i4_m512_n512_f32_1_alg».proof.Proof.Gen.Pre_finite_inputs_Kernel
import proofs.«900333_g7700000000000334_dist_treered_v7x_i4_m512_n512_f32_1_alg».proof.Proof.Gen.Pre_finite_inputs_ReferenceIdeal
import Idealize.ShloMosaic.Adequacy
import Idealize.ShloMosaic.Init

noncomputable section

namespace Cert.Proof.TreeClaims

open Idealize.ShloMosaic Idealize.SL.Sem Idealize.ShloMosaic.ValueIdx

/-- Every weakly fair execution ends with each device's result block at `outF` and its argument block unchanged. -/
def RunValue (F : FTy → Type) [FloatOps F] : Prop :=
  ∀ (m : (ℓ : Loc Cert.KernelIdeal.nD Cert.KernelIdeal.τ Cert.KernelIdeal.sig) → Buf (Elt F) ℓ)
    (ρ : Dev Cert.KernelIdeal.nD → PrngReg),
    θ_run (Cert.KernelIdeal.defs (F := F)) (onTc (τ := Cert.KernelIdeal.τ) (Cert.KernelIdeal.main (F := F))) ⟨m, fun _ => 0, ρ⟩
      (fun r => ∀ c : Dev Cert.KernelIdeal.nD,
        r.2.mem ((c.tc : Thread Cert.KernelIdeal.nD Cert.KernelIdeal.τ).loc Cert.KernelIdeal.main_v1) = Cert.KernelIdeal.Tree.outF m ρ c
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))

theorem frame_pi (h : RunValue Ideal) :
    Cert.frame_KernelIdeal (hKernelIdeal := Cert.KernelIdeal.Gen.facts)
      (hPre_finite_inputs_Kernel := Cert.Pre_finite_inputs_Kernel.Gen.facts) :=
  fun m ρ _ => (θ_run Cert.KernelIdeal.defs _ _).mono (fun _ hh c => (hh c).2) (h m ρ)

theorem preserves : Cert.preserves_Kernel_KernelIdeal := trivial

theorem X_eq_xw4
    (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0)
        = Layout.block ⟨3, ![1, 512, 512]⟩ ⟨3, ![4, 512, 512]⟩ 0 4 c
            (m' (((0 : Dev Cert.ReferenceIdeal.nD).tc : Thread Cert.ReferenceIdeal.nD Cert.ReferenceIdeal.τ).loc Cert.ReferenceIdeal.main_arg0)))
    (d : Dev Cert.KernelIdeal.nD) (r k : Fin 512) :
    Cert.KernelIdeal.Tree.X m ρ d r k
      = Cert.ReferenceIdeal.RefValue.xw4
          (m' (((0 : Dev Cert.ReferenceIdeal.nD).tc : Thread Cert.ReferenceIdeal.nD Cert.ReferenceIdeal.τ).loc Cert.ReferenceIdeal.main_arg0)) d r k := by
  unfold Cert.KernelIdeal.Tree.X
  rw [hagree d, Cert.ReferenceIdeal.RefValue.block_apply]

/-- Both sides are, index by index, the sum of the four blocks' entries. -/
theorem algebraic (h : RunValue Ideal) :
    Cert.algebraic_KernelIdeal_ReferenceIdeal (hKernelIdeal := Cert.KernelIdeal.Gen.facts)
      (hReferenceIdeal := Cert.ReferenceIdeal.Gen.facts)
      (hPre_finite_inputs_Kernel := Cert.Pre_finite_inputs_Kernel.Gen.facts) := by
  intro m ρ m' ρ' _ hagree
  refine ⟨Host.reduceAdd (F := Ideal)
      (m' (((0 : Dev Cert.ReferenceIdeal.nD).tc : Thread Cert.ReferenceIdeal.nD Cert.ReferenceIdeal.τ).loc Cert.ReferenceIdeal.main_arg0))
      (constant Cert.ReferenceIdeal.S_ .f32 0x00000000#32)
      Cert.ReferenceIdeal.Gen.reducesTo_S4x512x512_S512x512_d0 Cert.ReferenceIdeal.Gen.h_S_, ?_, ?_⟩
  · refine (θ_run Cert.KernelIdeal.defs _ _).mono (fun r hh c => ⟨?_, (hh c).2⟩) (h m ρ)
    rw [(hh c).1]
    funext i
    obtain ⟨a, b, rfl⟩ : ∃ a b, i = ix2 a b := ⟨i 0, i 1, eq_ix2 i⟩
    rw [Cert.KernelIdeal.Tree.outF_apply, Cert.ReferenceIdeal.RefValue.ref_apply,
      X_eq_xw4 m ρ m' hagree, X_eq_xw4 m ρ m' hagree, X_eq_xw4 m ρ m' hagree, X_eq_xw4 m ρ m' hagree]
  · exact (θ_run Cert.ReferenceIdeal.defs _ _).mono (fun r hh => hh 0)
      (Cert.ReferenceIdeal.Value.run (F := Ideal) m' ρ')

theorem claim_of
    (hK : Cert.frame_Kernel (hKernel := Cert.Kernel.Gen.facts)
      (hPre_finite_inputs_Kernel := Cert.Pre_finite_inputs_Kernel.Gen.facts))
    (h : RunValue Ideal) : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    hK, frame_pi h, Cert.ReferenceIdeal.RefValue.frame_ri, preserves, algebraic h⟩

end Cert.Proof.TreeClaims

end
-- ==== Proof.SchedFacts.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Ghost
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance treeRd_payload_storable (g : GSem nD τ sig) (r : ℕ) (d : Bool) :
    BI.Storable (upEmb : UEmb _ 𝕄) ((treeRd (F := F) m ρ).payload g r d) := by
  show BI.Storable upEmb (match g.2 with
    | .reg s => if s = barS then barPay g.1.1 d else iprop(emp)
    | .dma q => dmaPay m ρ g.1.1 q)
  unfold barPay dmaPay recvPay sendPay slotGift
  (repeat' split) <;> infer_instance

theorem send_ne_bar (n : Fin 24) : (SemLoc.dma (sendSem n) : SemLoc sig) ≠ .reg barS := fun h => by cases h
theorem recv_ne_bar (n : Fin 24) : (SemLoc.dma (recvSem n) : SemLoc sig) ≠ .reg barS := fun h => by cases h

private theorem sendSem_val (n : Fin 24) : (sendSem n).val = 2 + n.val := rfl
private theorem recvSem_val (n : Fin 24) : (recvSem n).val = 26 + n.val := rfl

private theorem not_bar_send (c : Dev nD) (n : Fin 24) : ¬ IsBar (sendCell c n) := fun h => send_ne_bar n h.2
private theorem not_bar_recv (c : Dev nD) (n : Fin 24) : ¬ IsBar (recvCell c n) := fun h => recv_ne_bar n h.2
private theorem xfer_send (c : Dev nD) (n : Fin 24) : IsXfer (sendCell c n) :=
  ⟨rfl, sendSem n, rfl, by rw [sendSem_val]; omega⟩
private theorem xfer_recv (c : Dev nD) (n : Fin 24) : IsXfer (recvCell c n) :=
  ⟨rfl, recvSem n, rfl, by rw [recvSem_val]; omega⟩

theorem duties_bar (c : Dev nD) : (treeRd (F := F) m ρ).duties (barCell c) 0 = Finset.univ := by
  dsimp only [treeRd]; exact if_pos ⟨rfl, rfl, rfl⟩
theorem duties_send (c : Dev nD) (n : Fin 24) : (treeRd (F := F) m ρ).duties (sendCell c n) 0 = {false} := by
  dsimp only [treeRd]; rw [if_neg (fun h => not_bar_send c n h.2)]; exact if_pos ⟨rfl, xfer_send c n⟩
theorem duties_recv (c : Dev nD) (n : Fin 24) : (treeRd (F := F) m ρ).duties (recvCell c n) 0 = {false} := by
  dsimp only [treeRd]; rw [if_neg (fun h => not_bar_recv c n h.2)]; exact if_pos ⟨rfl, xfer_recv c n⟩
theorem duties_later (g : GSem nD τ sig) : ∀ r, 1 ≤ r → (treeRd (F := F) m ρ).duties g r = ∅ :=
  fun r hr => by dsimp only [treeRd]; rw [if_neg fun h => by omega, if_neg fun h => by omega]

theorem amount_bar (c : Dev nD) (d : Bool) : (treeRd (F := F) m ρ).amount (barCell c) 0 d = 1 := by
  dsimp only [treeRd]; exact if_pos rfl
theorem amount_send (c : Dev nD) (n : Fin 24) (d : Bool) : (treeRd (F := F) m ρ).amount (sendCell c n) 0 d = N := by
  dsimp only [treeRd]; exact if_neg (send_ne_bar n)
theorem amount_recv (c : Dev nD) (n : Fin 24) (d : Bool) : (treeRd (F := F) m ρ).amount (recvCell c n) 0 d = N := by
  dsimp only [treeRd]; exact if_neg (recv_ne_bar n)

theorem expect_bar (c : Dev nD) : (treeRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_send (c : Dev nD) (n : Fin 24) : (treeRd (F := F) m ρ).expect (sendCell c n) 0 = N := by
  unfold Schedule.expect Schedule.amountOf; rw [duties_send, Finset.sum_singleton, amount_send]
theorem expect_recv (c : Dev nD) (n : Fin 24) : (treeRd (F := F) m ρ).expect (recvCell c n) 0 = N := by
  unfold Schedule.expect Schedule.amountOf; rw [duties_recv, Finset.sum_singleton, amount_recv]

theorem payload_bar (c : Dev nD) (d : Bool) : (treeRd (F := F) m ρ).payload (barCell c) 0 d = barPay c d := by
  dsimp only [treeRd]; exact if_pos rfl
theorem payload_send (c : Dev nD) (n : Fin 24) (d : Bool) : (treeRd (F := F) m ρ).payload (sendCell c n) 0 d = sendPay m ρ c n := by
  have h26 : ¬ 26 ≤ (sendSem n).val := by rw [sendSem_val]; have := n.isLt; omega
  have h2 : 2 ≤ (sendSem n).val := by rw [sendSem_val]; omega
  show dmaPay m ρ c (sendSem n) = _
  unfold dmaPay; rw [dif_neg h26, dif_pos h2]
  congr 1; exact Fin.ext (by show (sendSem n).val - 2 = n.val; rw [sendSem_val]; omega)
theorem payload_recv (c : Dev nD) (n : Fin 24) (d : Bool) : (treeRd (F := F) m ρ).payload (recvCell c n) 0 d = recvPay m ρ c n := by
  have h26 : 26 ≤ (recvSem n).val := by rw [recvSem_val]; omega
  show dmaPay m ρ c (recvSem n) = _
  unfold dmaPay; rw [dif_pos h26]
  congr 1; exact Fin.ext (by show (recvSem n).val - 26 = n.val; rw [recvSem_val]; omega)

theorem rest_bar (c : Dev nD) :
    bigSep ((treeRd (F := F) m ρ).duties (barCell c) 0 \ ∅) (fun d => (treeRd (F := F) m ρ).payload (barCell c) 0 d)
      = iprop(barPay c false ∗ barPay c true) := by
  rw [Finset.sdiff_empty, duties_bar, bigSep_univ_eq_bigSepL [false, true] (by decide) (by decide), bigSepL_cons_cons, bigSepL_singleton,
    payload_bar, payload_bar]
  rfl
theorem rest_send (c : Dev nD) (n : Fin 24) :
    bigSep ((treeRd (F := F) m ρ).duties (sendCell c n) 0 \ ∅) (fun d => (treeRd (F := F) m ρ).payload (sendCell c n) 0 d)
      = sendPay m ρ c n := by
  rw [Finset.sdiff_empty, duties_send, bigSep_singleton, payload_send]
theorem rest_recv (c : Dev nD) (n : Fin 24) :
    bigSep ((treeRd (F := F) m ρ).duties (recvCell c n) 0 \ ∅) (fun d => (treeRd (F := F) m ρ).payload (recvCell c n) 0 d)
      = recvPay m ρ c n := by
  rw [Finset.sdiff_empty, duties_recv, bigSep_singleton, payload_recv]

theorem lvS_bar : lvS (.reg barS : SemLoc sig) = 1 := by
  show (if barS = barS then 1 else 0) = 1; exact if_pos rfl
theorem lvS_send (n : Fin 24) : lvS (.dma (sendSem n) : SemLoc sig) = 0 := by
  show (if 26 ≤ (sendSem n).val then 2 + ((sendSem n).val - 26) / 8 else 0) = 0
  exact if_neg (by rw [sendSem_val]; have := n.isLt; omega)
theorem lvS_recv (n : Fin 24) : lvS (.dma (recvSem n) : SemLoc sig) = 2 + n.val / 8 := by
  show (if 26 ≤ (recvSem n).val then 2 + ((recvSem n).val - 26) / 8 else 0) = _
  rw [if_pos (by rw [recvSem_val]; omega), recvSem_val, Nat.add_sub_cancel_left]

private theorem posSlot_div (p : Fin 24) : (posSlot p).val / 8 = p.val / 8 := by revert p; decide

theorem Ot_pos {c : Dev nD} {k : ℕ} {g : GSem nD τ sig} {u : Unit} (h : 0 < Ot c k g u) :
    ∃ p : Fin 24, k ≤ p.val ∧ g = recvCell (ptS c (posSlot p)) (posSlot p) := by
  unfold Ot at h
  obtain ⟨p, hp, hpos⟩ := Pipeline.sum_pos_exists h
  refine ⟨p, (Finset.mem_filter.mp hp).2, ?_⟩
  rw [tallyAt_apply] at hpos
  by_contra hn
  rw [if_neg (fun h' => hn h'.1)] at hpos
  exact Nat.lt_irrefl 0 hpos

theorem mayWait_of_levels (c : Dev nD) (sm : SemLoc sig) (O : CellTallies nD τ sig Unit)
    (hO : ∀ g u, 0 < O g u → g.1.2 = .tc ∧ lvS sm < lvS g.2) :
    (levAts L lv : sProp 𝕄) ⊢ MayWait (c : Thread nD τ) sm () O :=
  MayOwe.of_cut (L := L) (lev := lv) (lvS sm)
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_refl _)
    (fun g u hg => (hO g u hg).2)

theorem mayWait_bar (c : Dev nD) : (levAts L lv : sProp 𝕄) ⊢ MayWait (c : Thread nD τ) (.reg barS) () (Ot c 0) :=
  mayWait_of_levels c _ _ fun g u hg => by
    obtain ⟨p, -, rfl⟩ := Ot_pos hg
    refine ⟨rfl, ?_⟩
    rw [lvS_bar, lvS_recv]; omega
theorem mayWait_send (c : Dev nD) (n : Fin 24) (k : ℕ) : (levAts L lv : sProp 𝕄) ⊢ MayWait (c : Thread nD τ) (.dma (sendSem n)) () (Ot c k) :=
  mayWait_of_levels c _ _ fun g u hg => by
    obtain ⟨p, -, rfl⟩ := Ot_pos hg
    refine ⟨rfl, ?_⟩
    rw [lvS_send, lvS_recv]; omega
theorem mayWait_recv (c : Dev nD) (p : Fin 24) (k : ℕ) (hk : 8 * (p.val / 8 + 1) ≤ k) :
    (levAts L lv : sProp 𝕄) ⊢ MayWait (c : Thread nD τ) (.dma (recvSem (posSlot p))) () (Ot c k) :=
  mayWait_of_levels c _ _ fun g u hg => by
    obtain ⟨p', hp', rfl⟩ := Ot_pos hg
    refine ⟨rfl, ?_⟩
    rw [lvS_recv, lvS_recv, posSlot_div, posSlot_div]; omega

end Cert.KernelIdeal.Tree

end
-- ==== Proof.LaunchRes.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Data
import proofs.«900333_g7700000000000334_dist_treered_v7x_i4_m512_n512_f32_1_alg».proof.Proof.SchedFacts
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def cidx (sm : SemLoc sig) : ℕ :=
  match sm with
  | .reg _ => 0
  | .dma q => q.val - 1

theorem cidx_csem (k : Fin 49) : cidx (csem k) = k.val := by revert k; decide +kernel

theorem kcell_injective : Function.Injective (kcell : Dev nD × Fin 49 → GSem nD τ sig) := by
  rintro ⟨c, k⟩ ⟨c', k'⟩ h
  have h1 : c = c' := by have := congrArg (fun g : GSem nD τ sig => g.1.1) h; exact this
  have h2 : csem k = csem k' := congrArg Prod.snd h
  have h3 : k = k' := Fin.ext (by rw [← cidx_csem k, ← cidx_csem k', h2])
  rw [h1, h3]

def treeCells : Finset (GSem nD τ sig) := Finset.univ.map ⟨kcell, kcell_injective⟩

def kOf : Unit ⊕ (Fin 24 ⊕ Fin 24) → Fin 49
  | .inl _ => kB
  | .inr (.inl n) => kS n
  | .inr (.inr n) => kR n
def kInv (k : Fin 49) : Unit ⊕ (Fin 24 ⊕ Fin 24) :=
  if h0 : k.val = 0 then .inl ()
  else if h : k.val ≤ 24 then .inr (.inl ⟨k.val - 1, by omega⟩)
  else .inr (.inr ⟨k.val - 25, by have := k.isLt; omega⟩)
def kEquiv : Unit ⊕ (Fin 24 ⊕ Fin 24) ≃ Fin 49 :=
  ⟨kOf, kInv, fun x => by revert x; decide +kernel, fun k => by revert k; decide +kernel⟩

theorem bigSep_fin49 (Φ : Fin 49 → sProp 𝕄) :
    bigSep Finset.univ Φ = iprop(Φ kB ∗ (bigSep Finset.univ fun n : Fin 24 => Φ (kS n)) ∗ bigSep Finset.univ fun n : Fin 24 => Φ (kR n)) := by
  rw [bigSep_univ_equiv kEquiv Φ, bigSep_univ_sum, bigSep_univ_sum, bigSep_univ_of_subsingleton ()]; rfl

theorem bigSep_cells49 (c : Dev nD) (Φ : GSem nD τ sig → sProp 𝕄) :
    (bigSep Finset.univ fun k : Fin 49 => Φ (kcell (c, k)))
      = iprop(Φ (barCell c) ∗ (bigSep Finset.univ fun n : Fin 24 => Φ (sendCell c n)) ∗ bigSep Finset.univ fun n : Fin 24 => Φ (recvCell c n)) := by
  rw [bigSep_fin49 (fun k => Φ (kcell (c, k))),
    show (fun n : Fin 24 => Φ (kcell (c, kS n))) = fun n => Φ (sendCell c n) from funext fun n => by rw [kcell_S],
    show (fun n : Fin 24 => Φ (kcell (c, kR n))) = fun n => Φ (recvCell c n) from funext fun n => by rw [kcell_R]]
  rfl

def tokOf (cj : Dev nD × (Bool ⊕ (Fin 24 ⊕ Fin 24))) : GSem nD τ sig × ℕ × Bool :=
  match cj.2 with
  | .inl d => (barCell cj.1, 0, d)
  | .inr (.inl n) => (sendCell cj.1 n, 0, false)
  | .inr (.inr n) => (recvCell cj.1 n, 0, false)

theorem tokOf_injective : Function.Injective (tokOf : Dev nD × (Bool ⊕ (Fin 24 ⊕ Fin 24)) → GSem nD τ sig × ℕ × Bool) := by
  rintro ⟨c, j⟩ ⟨c', j'⟩ h
  have h1 : c = c' := by
    have := congrArg (fun x : GSem nD τ sig × ℕ × Bool => x.1.1.1) h
    rcases j with d | n | n <;> rcases j' with d' | n' | n' <;> exact this
  subst h1
  have hs := congrArg (fun x : GSem nD τ sig × ℕ × Bool => cidx x.1.2) h
  have hd := congrArg (fun x : GSem nD τ sig × ℕ × Bool => x.2.2) h
  rcases j with d | n | n <;> rcases j' with d' | n' | n'
  · have e : d = d' := hd
    rw [e]
  · have e : 0 = 2 + n'.val - 1 := hs
    omega
  · have e : 0 = 26 + n'.val - 1 := hs
    omega
  · have e : 2 + n.val - 1 = 0 := hs
    omega
  · have e : 2 + n.val - 1 = 2 + n'.val - 1 := hs
    have e' : n = n' := Fin.ext (by omega)
    rw [e']
  · have e : 2 + n.val - 1 = 26 + n'.val - 1 := hs
    have := n.isLt; omega
  · have e : 26 + n.val - 1 = 0 := hs
    omega
  · have e : 26 + n.val - 1 = 2 + n'.val - 1 := hs
    have := n'.isLt; omega
  · have e : 26 + n.val - 1 = 26 + n'.val - 1 := hs
    have e' : n = n' := Fin.ext (by omega)
    rw [e']

def treeToks : Finset (GSem nD τ sig × ℕ × Bool) := Finset.univ.map ⟨tokOf, tokOf_injective⟩

def u₀ : UU :=
  (initOf (Pipeline.cells cfgs cellOf_inj) (Pipeline.launchToks cfgs cellOf_inj), initOf treeCells treeToks)

def toks (c : Dev nD) : sProp 𝕄 :=
  iprop(dutyTok ER (barCell c) 0 false ∗ dutyTok ER (barCell c) 0 true
    ∗ (bigSep Finset.univ fun n : Fin 24 => dutyTok ER (sendCell c n) 0 false)
    ∗ (bigSep Finset.univ fun n : Fin 24 => dutyTok ER (recvCell c n) 0 false))

def G (m : (ℓ : Loc nD τ sig) → Buf (Elt F) ℓ) (ρ : Dev nD → PrngReg) (c : Dev nD) : sProp 𝕄 :=
  iprop((bigSep Finset.univ fun k : Fin 49 => roundState ER (treeRd m ρ) (kcell (c, k)) 0)
    ∗ (bigSep Finset.univ fun k : Fin 49 => iprop(atPos ER (kcell (c, k)) 0 ∅ 0 ∗ reached ER (kcell (c, k)) 0)) ∗ toks c)

def G' (m : (ℓ : Loc nD τ sig) → Buf (Elt F) ℓ) (ρ : Dev nD → PrngReg) (c : Dev nD) : sProp 𝕄 := iprop(∃ K, ghost m ρ K c)

theorem bigSep_bool' (Φ : Bool → sProp 𝕄) : bigSep Finset.univ Φ = iprop(Φ false ∗ Φ true) :=
  bigSep_univ_eq_bigSepL [false, true] (by decide) (by decide) Φ

theorem toks_of_minted (c : Dev nD) :
    iprop((dutyTok ER (barCell c) 0 false ∗ dutyTok ER (barCell c) 0 true)
      ∗ (bigSep Finset.univ fun n : Fin 24 => dutyTok ER (sendCell c n) 0 false)
      ∗ (bigSep Finset.univ fun n : Fin 24 => dutyTok ER (recvCell c n) 0 false)) ⊢ (toks c : sProp 𝕄) := by
  unfold toks
  iintro ⟨⟨H1, H2⟩, H3, H4⟩
  iframe

theorem fund_tree (m : (ℓ : Loc nD τ sig) → Buf (Elt F) ℓ) (ρ : Dev nD → PrngReg) :
    BI.own (ER (initOf treeCells treeToks)) ⊢ (|==> bigSep Finset.univ (G m ρ) : sProp 𝕄) := by
  have hX (Φ : GSem nD τ sig → sProp 𝕄) : bigSep treeCells Φ = bigSep Finset.univ fun c : Dev nD => bigSep Finset.univ fun k : Fin 49 => Φ (kcell (c, k)) := by
    unfold treeCells; rw [bigSep_map, bigSep_univ_prod]; rfl
  have hT : bigSep treeToks (fun x => (dutyTok ER x.1 x.2.1 x.2.2 : sProp 𝕄)) ⊢ bigSep Finset.univ fun c : Dev nD => toks c := by
    unfold treeToks; rw [bigSep_map, bigSep_univ_prod]
    refine bigSep_mono fun c _ => ?_
    rw [bigSep_univ_sum, bigSep_univ_sum, bigSep_bool']
    exact toks_of_minted c
  iintro HX
  imod (Rounds.fund ER (treeRd m ρ) treeCells treeToks) $$ HX with ⟨Hst, Hr, Hat, Htok⟩
  imodintro
  ihave Hst' := (Entails.of_eq (hX fun g => roundState ER (treeRd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

def oOf : Fin 24 ⊕ Fin 24 → Fin 48
  | .inl n => ⟨n.val, by have := n.isLt; omega⟩
  | .inr n => ⟨24 + n.val, by have := n.isLt; omega⟩
def oInv (i : Fin 48) : Fin 24 ⊕ Fin 24 :=
  if h : i.val < 24 then .inl ⟨i.val, h⟩ else .inr ⟨i.val - 24, by have := i.isLt; omega⟩
def oEquiv : Fin 24 ⊕ Fin 24 ≃ Fin 48 :=
  ⟨oOf, oInv, fun x => by revert x; decide +kernel, fun i => by revert i; decide +kernel⟩
theorem osem_inl (n : Fin 24) : osem (oEquiv (.inl n)) = .dma (sendSem n) := by revert n; decide +kernel
theorem osem_inr (n : Fin 24) : osem (oEquiv (.inr n)) = .dma (recvSem n) := by revert n; decide +kernel

theorem ownSems0_eq (c : Dev nD) :
    (Pipeline.ownSems0 (Ix := Unit) (Name := ℕ) (U := UU) (Lvl := ℕ) (Val := Elt F) (τ := τ) osem c : sProp 𝕄)
      = iprop((bigSep Finset.univ fun n : Fin 24 => semVal (sendCell c n) 0) ∗ bigSep Finset.univ fun n : Fin 24 => semVal (recvCell c n) 0) := by
  unfold Pipeline.ownSems0
  rw [bigSep_univ_equiv oEquiv, bigSep_univ_sum,
    show (fun n : Fin 24 => (semVal ((c.tc : Thread nD τ), osem (oEquiv (.inl n))) 0 : sProp 𝕄)) = fun n => semVal (sendCell c n) 0 from
      funext fun n => by rw [osem_inl],
    show (fun n : Fin 24 => (semVal ((c.tc : Thread nD τ), osem (oEquiv (.inr n))) 0 : sProp 𝕄)) = fun n => semVal (recvCell c n) 0 from
      funext fun n => by rw [osem_inr]]
  rfl

theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 49 => semVal (kcell (c, k)) 0 : sProp 𝕄) := by
  rw [ownSems0_eq, unscopedSems0_eq, bigSep_cells49 c (fun g => semVal g 0)]
  iintro ⟨⟨HS, HV⟩, HB⟩
  iframe

theorem core_alloc (m : (ℓ : Loc nD τ sig) → Buf (Elt F) ℓ) (ρ : Dev nD → PrngReg) (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (treeRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 49 => semVal (kcell (c, k)) 0) ∗ bigSep Finset.univ fun k : Fin 49 => roundState ER (treeRd m ρ) (kcell (c, k)) 0)
      ⊢ (|={Set.univ}=> bigSep Finset.univ fun k => iprop(∃ κ : ℕ, cellInv ER (treeRd m ρ) κ (kcell (c, k))) : sProp 𝕄) from by
        rw [← bigSep_sep']
        exact (bigSep_mono fun k _ => (Rounds.body_intro ER (treeRd m ρ) (kcell (c, k))).trans inv_alloc).trans (bigSep_fupd _ _)) $$ [Hv Hst] with Hinv
  · isplitl [Hv] <;> iassumption
  imodintro
  iframe

def records (m : (ℓ : Loc nD τ sig) → Buf (Elt F) ℓ) (ρ : Dev nD → PrngReg) (K : Dev nD × Fin 49 → ℕ) : sProp 𝕄 :=
  iprop((bigSep Finset.univ fun ck : Dev nD × Fin 49 => cellInv ER (treeRd m ρ) (K ck) (kcell ck))
    ∗ bigSep Finset.univ fun ck : Dev nD × Fin 49 => reached ER (kcell ck) 0)

instance records_persistent (m : (ℓ : Loc nD τ sig) → Buf (Elt F) ℓ) (ρ : Dev nD → PrngReg) (K : Dev nD × Fin 49 → ℕ) : BI.Persistent (records m ρ K) := by
  unfold records; infer_instance

theorem inv_at (m : (ℓ : Loc nD τ sig) → Buf (Elt F) ℓ) (ρ : Dev nD → PrngReg) (K : Dev nD × Fin 49 → ℕ) (ck : Dev nD × Fin 49) :
    (bigSep Finset.univ fun ck : Dev nD × Fin 49 => (cellInv ER (treeRd m ρ) (K ck) (kcell ck) : sProp 𝕄)) ⊢ cellInv ER (treeRd m ρ) (K ck) (kcell ck) :=
  bigSep_elim (Finset.mem_univ ck)
theorem reached_at (ck : Dev nD × Fin 49) :
    (bigSep Finset.univ fun ck : Dev nD × Fin 49 => (reached ER (kcell ck) 0 : sProp 𝕄)) ⊢ reached ER (kcell ck) 0 :=
  bigSep_elim (Finset.mem_univ ck)

def payToks (c : Dev nD) : sProp 𝕄 :=
  iprop(dutyTok ER (barCell (p1 c)) 0 false ∗ dutyTok ER (barCell (p2 c)) 0 true
    ∗ (bigSep Finset.univ fun n : Fin 24 => dutyTok ER (sendCell c n) 0 false)
    ∗ (bigSep Finset.univ fun n : Fin 24 => dutyTok ER (recvCell (ptS c n) n) 0 false))

theorem linear_intro (c : Dev nD) :
    iprop((bigSep Finset.univ fun k : Fin 49 => atPos ER (kcell (c, k)) 0 ∅ 0) ∗ payToks c) ⊢ (linear c : sProp 𝕄) := by
  unfold payToks linear slotToks
  rw [bigSep_cells49 c (fun g => atPos ER g 0 ∅ 0)]
  simp only [bigSep_sep']
  iintro ⟨⟨HaB, HaS, HaR⟩, H1, H2, HtS, HtR⟩
  iframe

theorem inv_at_S (m : (ℓ : Loc nD τ sig) → Buf (Elt F) ℓ) (ρ : Dev nD → PrngReg) (K : Dev nD × Fin 49 → ℕ) (c : Dev nD) (n : Fin 24) :
    (bigSep Finset.univ fun ck : Dev nD × Fin 49 => (cellInv ER (treeRd m ρ) (K ck) (kcell ck) : sProp 𝕄)) ⊢ cellInv ER (treeRd m ρ) (K (c, kS n)) (sendCell c n) := by
  have e := inv_at m ρ K (c, kS n); rw [kcell_S] at e; exact e
theorem inv_at_R (m : (ℓ : Loc nD τ sig) → Buf (Elt F) ℓ) (ρ : Dev nD → PrngReg) (K : Dev nD × Fin 49 → ℕ) (c : Dev nD) (n : Fin 24) :
    (bigSep Finset.univ fun ck : Dev nD × Fin 49 => (cellInv ER (treeRd m ρ) (K ck) (kcell ck) : sProp 𝕄)) ⊢ cellInv ER (treeRd m ρ) (K (c, kR n)) (recvCell c n) := by
  have e := inv_at m ρ K (c, kR n); rw [kcell_R] at e; exact e
theorem reached_at_S (c : Dev nD) (n : Fin 24) :
    (bigSep Finset.univ fun ck : Dev nD × Fin 49 => (reached ER (kcell ck) 0 : sProp 𝕄)) ⊢ reached ER (sendCell c n) 0 := by
  have e := reached_at (F := F) (c, kS n); rw [kcell_S] at e; exact e
theorem reached_at_R (c : Dev nD) (n : Fin 24) :
    (bigSep Finset.univ fun ck : Dev nD × Fin 49 => (reached ER (kcell ck) 0 : sProp 𝕄)) ⊢ reached ER (recvCell c n) 0 := by
  have e := reached_at (F := F) (c, kR n); rw [kcell_R] at e; exact e

theorem invs_intro (m : (ℓ : Loc nD τ sig) → Buf (Elt F) ℓ) (ρ : Dev nD → PrngReg) (K : Dev nD × Fin 49 → ℕ) (c : Dev nD) :
    (bigSep Finset.univ fun ck : Dev nD × Fin 49 => (cellInv ER (treeRd m ρ) (K ck) (kcell ck) : sProp 𝕄)) ⊢ invs m ρ K c := by
  unfold invs
  iintro #HI
  isplitr; · iapply (inv_at m ρ K (c, kB)); iexact HI
  isplitr; · iapply (inv_at m ρ K (p1 c, kB)); iexact HI
  isplitr; · iapply (inv_at m ρ K (p2 c, kB)); iexact HI
  iapply (bigSep_intro_persistent (S := Finset.univ)
    (R := bigSep Finset.univ fun ck : Dev nD × Fin 49 => (cellInv ER (treeRd m ρ) (K ck) (kcell ck) : sProp 𝕄))
    (Φ := fun n : Fin 24 => iprop(cellInv ER (treeRd m ρ) (K (c, kS n)) (sendCell c n) ∗ cellInv ER (treeRd m ρ) (K (c, kR n)) (recvCell c n)
          ∗ cellInv ER (treeRd m ρ) (K (ptS c n, kR n)) (recvCell (ptS c n) n)))
    fun n _ => by
      iintro #HJ
      isplitr; · iapply (inv_at_S m ρ K c n); iexact HJ
      isplitr; · iapply (inv_at_R m ρ K c n); iexact HJ
      iapply (inv_at_R m ρ K (ptS c n) n); iexact HJ)
  iexact HI

theorem marks_intro (c : Dev nD) :
    (bigSep Finset.univ fun ck : Dev nD × Fin 49 => (reached ER (kcell ck) 0 : sProp 𝕄)) ⊢ marks c := by
  unfold marks
  iintro #HR
  isplitr; · iapply (reached_at (F := F) (p1 c, kB)); iexact HR
  isplitr; · iapply (reached_at (F := F) (p2 c, kB)); iexact HR
  iapply (bigSep_intro_persistent (S := Finset.univ)
    (R := bigSep Finset.univ fun ck : Dev nD × Fin 49 => (reached ER (kcell ck) 0 : sProp 𝕄))
    (Φ := fun n : Fin 24 => iprop(reached ER (sendCell c n) 0 ∗ reached ER (recvCell c n) 0))
    fun n _ => by
      iintro #HJ
      isplitr; · iapply (reached_at_S (F := F) c n); iexact HJ
      iapply (reached_at_R (F := F) c n); iexact HJ)
  iexact HR

theorem ghost_intro (m : (ℓ : Loc nD τ sig) → Buf (Elt F) ℓ) (ρ : Dev nD → PrngReg) (K : Dev nD × Fin 49 → ℕ) (c : Dev nD) :
    iprop(records m ρ K ∗ linear c) ⊢ G' m ρ c := by
  unfold records G' ghost
  iintro ⟨⟨#HI, #HR⟩, Hlin⟩
  iexists K
  isplitr
  · iapply (invs_intro m ρ K c); iexact HI
  isplitr
  · iapply (marks_intro (F := F) c); iexact HR
  iexact Hlin

def p1E : Dev nD ≃ Dev nD := ⟨p1, p1, p1_p1, p1_p1⟩
def p2E : Dev nD ≃ Dev nD := ⟨p2, p2, p2_p2, p2_p2⟩
def ptSE (n : Fin 24) : Dev nD ≃ Dev nD := ⟨fun c => ptS c n, fun c => ptS c n, fun c => ptS_ptS c n, fun c => ptS_ptS c n⟩

theorem recv_around :
    (bigSep Finset.univ fun c : Dev nD => bigSep Finset.univ fun n : Fin 24 => (dutyTok ER (recvCell c n) 0 false : sProp 𝕄))
      = bigSep Finset.univ fun c : Dev nD => bigSep Finset.univ fun n : Fin 24 => dutyTok ER (recvCell (ptS c n) n) 0 false := by
  rw [bigSep_univ_comm (fun (c : Dev nD) (n : Fin 24) => (dutyTok ER (recvCell c n) 0 false : sProp 𝕄)),
    bigSep_univ_comm (fun (c : Dev nD) (n : Fin 24) => (dutyTok ER (recvCell (ptS c n) n) 0 false : sProp 𝕄))]
  exact bigSep_congr fun n _ => bigSep_univ_equiv (ptSE n) (fun c : Dev nD => (dutyTok ER (recvCell c n) 0 false : sProp 𝕄))

theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep',
    bigSep_univ_equiv p1E (fun c : Dev nD => (dutyTok ER (barCell c) 0 false : sProp 𝕄)),
    bigSep_univ_equiv p2E (fun c : Dev nD => (dutyTok ER (barCell c) 0 true : sProp 𝕄)),
    recv_around]
  iintro ⟨H1, H2, H3, H4⟩
  isplitl [H1]; · iexact H1
  isplitl [H2]; · iexact H2
  iframe

theorem regroup (m : (ℓ : Loc nD τ sig) → Buf (Elt F) ℓ) (ρ : Dev nD → PrngReg) :
    (bigSep Finset.univ fun c : Dev nD => iprop((bigSep Finset.univ fun k => iprop(∃ κ : ℕ, cellInv ER (treeRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 49 => iprop(∃ κ : ℕ, cellInv ER (treeRd m ρ) κ (kcell ck))),
    bigSep_congr (s := Finset.univ) (fun (c : Dev nD) _ => bigSep_sep' Finset.univ (fun k : Fin 49 => (atPos ER (kcell (c, k)) 0 ∅ 0 : sProp 𝕄)) (fun k => reached ER (kcell (c, k)) 0)),
    bigSep_sep', ← bigSep_univ_prod (fun ck : Dev nD × Fin 49 => (reached ER (kcell ck) 0 : sProp 𝕄))]
  iintro ⟨HI, ⟨Hat, #HR⟩, Htok⟩
  ihave HK := (BI.bigSep_exists_pi Finset.univ (fun (ck : Dev nD × Fin 49) (κ : ℕ) => (cellInv ER (treeRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 49 => (atPos ER (kcell (c, k)) 0 ∅ 0 : sProp 𝕄)) payToks).symm).trans
      (bigSep_mono fun c _ => linear_intro c))
    isplitl [Hat]; · iexact Hat
    iexact Htk

theorem glob (m : (ℓ : Loc nD τ sig) → Buf (Elt F) ℓ) (ρ : Dev nD → PrngReg) :
    (bigSep Finset.univ fun c => iprop(Pipeline.ownSems0 (Ix := Unit) (Name := ℕ) (U := UU) (Lvl := ℕ) (Val := Elt F) (τ := τ) osem c ∗ unscopedSems0 c ∗ G m ρ c) : sProp 𝕄)
      ⊢ |={Set.univ}=> bigSep Finset.univ (G' m ρ) :=
  ((bigSep_mono fun c _ => core_alloc m ρ c).trans (bigSep_fupd _ _)).trans (BI.fupd_mono (regroup m ρ))

end Cert.KernelIdeal.Tree

end
-- ==== Proof.Prims.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.SchedFacts
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem bigSep_boolean (Φ : Bool → sProp 𝕄) : bigSep Finset.univ Φ = iprop(Φ false ∗ Φ true) := by
  rw [show (Finset.univ : Finset Bool) = {false, true} from by decide, bigSep_insert (by decide), bigSep_singleton]
  rfl

def giftE : Bool × Fin 3 × Fin 4 ≃ Fin 24 where
  toFun x := slotF x.2.1 (bkOf x.2.1 x.1) x.2.2
  invFun n := (decide (blkOf n ≠ bkOf (rndOf n) false), rndOf n, chOf n)
  left_inv := by intro x; revert x; decide
  right_inv := by intro n; revert n; decide

theorem gift_split (Φ : Fin 24 → sProp 𝕄) :
    bigSep Finset.univ Φ
      = iprop((bigSep Finset.univ fun rc : Fin 3 × Fin 4 => Φ (slotF rc.1 (bkOf rc.1 false) rc.2))
          ∗ (bigSep Finset.univ fun rc : Fin 3 × Fin 4 => Φ (slotF rc.1 (bkOf rc.1 true) rc.2))) := by
  rw [bigSep_univ_equiv giftE Φ, bigSep_univ_prod, bigSep_boolean]
  rfl

/-- The two neighbours' handshake payloads are, slot by slot, the right to write the partner's receive slot. -/
theorem gift_elim (c : Dev nD) :
    (iprop(barPay c false ∗ barPay c true) : sProp 𝕄) ⊢ bigSep Finset.univ fun n : Fin 24 => slotGift (ptS c n) n := by
  rw [gift_split]
  unfold barPay
  have h : ∀ d : Bool, (fun rc : Fin 3 × Fin 4 => (slotGift (pt c rc.1 (bkOf rc.1 d)) (slotF rc.1 (bkOf rc.1 d) rc.2) : sProp 𝕄))
      = fun rc : Fin 3 × Fin 4 => slotGift (ptS c (slotF rc.1 (bkOf rc.1 d) rc.2)) (slotF rc.1 (bkOf rc.1 d) rc.2) := by
    intro d; funext rc; rw [ptS_slotF]
  rw [h false, h true]

theorem gift_intro (c : Dev nD) :
    (bigSep Finset.univ fun n : Fin 24 => (slotGift c n : sProp 𝕄)) ⊢ iprop(barPay (p1 c) false ∗ barPay (p2 c) true) := by
  rw [gift_split]
  unfold barPay
  have h1 : ∀ rnd : Fin 3, pt (p1 c) rnd (bkOf rnd false) = c := by
    intro rnd; rw [pt_bkOf]; exact p1_p1 c
  have h2 : ∀ rnd : Fin 3, pt (p2 c) rnd (bkOf rnd true) = c := by
    intro rnd; rw [pt_bkOf]; exact p2_p2 c
  simp only [h1, h2]
  exact BI.Entails.refl _

theorem wp_sig1 (K : Dev nD × Fin 49 → ℕ) (c : Dev nD) {dv : Dev nD} (hdv : dv = p1 c) {k' : ℕ} (hk' : k' = 1)
    {α : Type} {Q : α → sProp 𝕄} {k : PUnit → Prog (TpuEff nD τ sig (Elt F) Λ₀ .tc) α} (W : Waits sig Unit) :
    iprop(invs m ρ K c ∗ marks c ∗ dutyTok ER (barCell (p1 c)) 0 false ∗ barPay (p1 c) false ∗ owes (c : Thread nD τ) (O₀ c) W)
      ⊢ iprop((owes (c : Thread nD τ) (O₁ c) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dv : Thread nD τ) barS k') k) Q) := by
  subst hdv hk'
  unfold invs marks
  iintro ⟨⟨-, #HI1, -, -⟩, ⟨#Hr1, -, -⟩, Htok, Hpay, HO⟩ Hk
  iapply (Rounds.wp_signal 𝒱₀ ER (treeRd m ρ) (c : Thread nD τ) none (dst := (p1 c : Thread nD τ)) (κ := K (p1 c, kB))
      (r := 0) (d := false) (by rw [duties_bar]; exact Finset.mem_univ _) (amount_bar m ρ (p1 c) false) () (O₀ := O₀ c) (O₁ c) rfl (W := W))
    $$ [HO Htok Hpay]
  · isplitr; · iexact HI1
    isplitl [HO]; · iexact HO
    isplitl [Htok]; · iexact Htok
    isplitl [Hpay]; · rw [payload_bar]; iexact Hpay
    iexact Hr1
  iexact Hk

theorem wp_sig2 (K : Dev nD × Fin 49 → ℕ) (c : Dev nD) {dv : Dev nD} (hdv : dv = p2 c) {k' : ℕ} (hk' : k' = 1)
    {α : Type} {Q : α → sProp 𝕄} {k : PUnit → Prog (TpuEff nD τ sig (Elt F) Λ₀ .tc) α} (W : Waits sig Unit) :
    iprop(invs m ρ K c ∗ marks c ∗ dutyTok ER (barCell (p2 c)) 0 true ∗ barPay (p2 c) true ∗ owes (c : Thread nD τ) (O₁ c) W)
      ⊢ iprop((owes (c : Thread nD τ) (Ot c 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dv : Thread nD τ) barS k') k) Q) := by
  subst hdv hk'
  unfold invs marks
  iintro ⟨⟨-, -, #HI2, -⟩, ⟨-, #Hr2, -⟩, Htok, Hpay, HO⟩ Hk
  iapply (Rounds.wp_signal 𝒱₀ ER (treeRd m ρ) (c : Thread nD τ) none (dst := (p2 c : Thread nD τ)) (κ := K (p2 c, kB))
      (r := 0) (d := true) (by rw [duties_bar]; exact Finset.mem_univ _) (amount_bar m ρ (p2 c) true) () (O₀ := O₁ c) (Ot c 0) rfl (W := W))
    $$ [HO Htok Hpay]
  · isplitr; · iexact HI2
    isplitl [HO]; · iexact HO
    isplitl [Htok]; · iexact Htok
    isplitl [Hpay]; · rw [payload_bar]; iexact Hpay
    iexact Hr2
  iexact Hk

theorem wp_barwait (K : Dev nD × Fin 49 → ℕ) (c : Dev nD) {k' : ℕ} (hk' : k' = 2)
    {α : Type} {Q : α → sProp 𝕄} {k : PUnit → Prog (TpuEff nD τ sig (Elt F) Λ₀ .tc) α} (W : Waits sig Unit) :
    iprop(invs m ρ K c ∗ cred (tallyAt (barCell c) () 2) ∗ owes (c : Thread nD τ) (Ot c 0) W ∗ levAts L lv ∗ atPos ER (barCell c) 0 ∅ 0)
      ⊢ iprop(((owes (c : Thread nD τ) (Ot c 0) (insert (SemLoc.reg barS, ()) W) ∗ barPay c false ∗ barPay c true)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS k') k) Q) := by
  subst hk'
  unfold invs
  iintro ⟨⟨#HIb, -, -, -⟩, Hc, HO, #Hlev, Hat⟩ Hk
  iapply (Rounds.wp_wait_rest_token 𝒱₀ ER (treeRd m ρ) (c : Thread nD τ) none (κ := K (c, kB))
      (wpE_semWait_eq 𝒱₀ (c : Thread nD τ) none Set.univ) (Set.mem_univ _) () (O := Ot c 0) (W := W) (R := 0) (m := 0) (T := ∅)
      (by rw [expect_bar])) $$ [Hc HO Hat]
  · isplitr; · iexact HIb
    isplitl [Hc]; · iexact Hc
    isplitl [HO]; · iexact HO
    isplitr; · iapply (mayWait_bar c); iexact Hlev
    iexact Hat
  iintro ⟨HO, -, -, Hpay⟩
  ihave Hp := (Entails.of_eq (rest_bar m ρ c)) $$ Hpay
  iapply Hk
  isplitl [HO]; · iexact HO
  iexact Hp

/-- Starting transfer `p`: the source piece goes with the send duty, the partner's slot with the landing duty. -/
theorem wp_enq (K : Dev nD × Fin 49 → ℕ) (c : Dev nD) (p : Fin 24)
    {src : Memref sig .tc .vmem S32x512 .f32} {dv : Dev nD} {dst : Memref sig .tc .vmem S32x512 .f32} {ss rs : DmaSem sig}
    (hsrcE : src = srcM c (rndOf (posSlot p)) (blkOf (posSlot p)) (chOf (posSlot p)))
    (hdv : dv = ptS c (posSlot p)) (hdstE : dst = rQ (posSlot p))
    (hss : ss = sendSem (posSlot p)) (hrs : rs = recvSem (posSlot p))
    {hsc : dst.view.ref.isScScratch = false} {hsrc : src.view.WordExact} {hdst : dst.view.WordExact}
    {hsem : DmaTarget.Typed .vmem (.dma rs) (.remote (Dev.tc dv : Thread nD τ) dst (.dma ss) hsc)}
    {α : Type} {Q : α → sProp 𝕄} {k : PUnit → Prog (TpuEff nD τ sig (Elt F) Λ₀ .tc) α} (W : Waits sig Unit) :
    iprop(invs m ρ K c ∗ marks c
        ∗ dutyTok ER (sendCell c (posSlot p)) 0 false ∗ dutyTok ER (recvCell (ptS c (posSlot p)) (posSlot p)) 0 false
        ∗ sendPay m ρ c (posSlot p) ∗ slotGift (ptS c (posSlot p)) (posSlot p) ∗ owes (c : Thread nD τ) (Ot c p.val) W)
      ⊢ iprop(((cred (tallyAt (sendCell c (posSlot p)) () N) ∗ owes (c : Thread nD τ) (Ot c (p.val + 1)) W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dv : Thread nD τ) dst (.dma ss) hsc) (.dma rs) hsrc hdst hsem) k) Q) := by
  subst hsrcE hdv hdstE hss hrs
  unfold invs marks sendPay slotGift ownsTc owns
  rw [bigSep_univ_at _ (posSlot p), bigSep_univ_at _ (posSlot p)]
  iintro ⟨⟨-, -, -, ⟨#HI1, -, #HI3⟩, -⟩, ⟨-, -, ⟨#HrS, -⟩, -⟩, HtS, HtR, ⟨%fs, %hfs, Hsrc⟩, ⟨⟨%Wd, %fd, %hfd, Hdst⟩, #HrR⟩, HO⟩ Hk
  have hpay1 : ((srcM c (rndOf (posSlot p)) (blkOf (posSlot p)) (chOf (posSlot p))).view.loc (c : Thread nD τ)
        ↦[(srcM c (rndOf (posSlot p)) (blkOf (posSlot p)) (chOf (posSlot p))).view.set]{fullShare} fs : sProp 𝕄)
      ⊢ (treeRd m ρ).payload (sendCell c (posSlot p)) 0 false := by
    rw [payload_send]; unfold sendPay; rw [← hfs]
    exact owns_intro (c : Thread nD τ) _ fullShare fs
  have hpay2 : ((rQ (posSlot p) : Memref sig .tc .vmem S32x512 .f32).view.loc (ptS c (posSlot p) : Thread nD τ)
        ↦[(rQ (posSlot p) : Memref sig .tc .vmem S32x512 .f32).view.set]{fullShare}
          ((rQ (posSlot p) : Memref sig .tc .vmem S32x512 .f32).view.write (Elt F) fd
            ((srcM c (rndOf (posSlot p)) (blkOf (posSlot p)) (chOf (posSlot p))).view.read (Elt F) fs) Finset.univ) : sProp 𝕄)
      ⊢ (treeRd m ρ).payload (recvCell (ptS c (posSlot p)) (posSlot p)) 0 false := by
    rw [payload_recv]; unfold recvPay
    have e : rv m ρ (ptS c (posSlot p)) (rndOf (posSlot p)) (blkOf (posSlot p)) (chOf (posSlot p))
        = (rQ (posSlot p) : Memref sig .tc .vmem S32x512 .f32).view.read (Elt F)
            ((rQ (posSlot p) : Memref sig .tc .vmem S32x512 .f32).view.write (Elt F) fd
              ((srcM c (rndOf (posSlot p)) (blkOf (posSlot p)) (chOf (posSlot p))).view.read (Elt F) fs) Finset.univ) := by
      rw [View.read_write_univ, hfs]; exact (sv_eq_rv m ρ c _ _ _).symm
    rw [e]
    exact owns_intro (ptS c (posSlot p) : Thread nD τ) _ fullShare _
  iapply (Rounds.wp_send_pointsTo 𝒱₀ ER (treeRd m ρ) (c : Thread nD τ) none (c' := (ptS c (posSlot p) : Thread nD τ))
      (src := srcM c (rndOf (posSlot p)) (blkOf (posSlot p)) (chOf (posSlot p))) (dst := rQ (posSlot p))
      (sS := .dma (sendSem (posSlot p))) (sem := .dma (recvSem (posSlot p)))
      (q := fullShare) (fs := fs) (fd := fd) (r₁ := 0) (r₂ := 0) (d₁ := false) (d₂ := false)
      (κ₁ := K (c, kS (posSlot p))) (κ₂ := K (ptS c (posSlot p), kR (posSlot p)))
      (by rw [duties_send]; exact Finset.mem_singleton_self _) (by rw [duties_recv]; exact Finset.mem_singleton_self _)
      () () N rfl (amount_send m ρ c (posSlot p) false) (amount_recv m ρ (ptS c (posSlot p)) (posSlot p) false)
      (O₀ := Ot c p.val) (Ot c (p.val + 1)) (Ot_succ c p.val p.isLt) (W := W) hpay1 hpay2) $$ [Hsrc Hdst HO HtS HtR]
  · iframe # ∗
  iexact Hk

/-- The two waits that end transfer `p`: the source piece returns and the slot holds what the partner sent. -/
theorem wp_wait2 (K : Dev nD × Fin 49 → ℕ) (c : Dev nD) (p : Fin 24) (k₀ : ℕ) (hk : 8 * (p.val / 8 + 1) ≤ k₀)
    {ss rs : DmaSem sig} (hss : ss = sendSem (posSlot p)) (hrs : rs = recvSem (posSlot p))
    {a₁ b₁ a₂ b₂ : Memref sig .tc .vmem S32x512 .f32}
    {ha₁ : a₁.view.WordExact} {hb₁ : b₁.view.WordExact} {ha₂ : a₂.view.WordExact} {hb₂ : b₂.view.WordExact}
    {α : Type} {Q : α → sProp 𝕄} {k : PUnit → Prog (TpuEff nD τ sig (Elt F) Λ₀ .tc) α} (W : Waits sig Unit) :
    iprop(invs m ρ K c ∗ levAts L lv
        ∗ cred (tallyAt (sendCell c (posSlot p)) () N) ∗ cred (tallyAt (recvCell c (posSlot p)) () N)
        ∗ atPos ER (sendCell c (posSlot p)) 0 ∅ 0 ∗ atPos ER (recvCell c (posSlot p)) 0 ∅ 0
        ∗ owes (c : Thread nD τ) (Ot c k₀) W)
      ⊢ iprop((∀ W', (sendPay m ρ c (posSlot p) ∗ recvPay m ρ c (posSlot p)
              ∗ semVal (sendCell c (posSlot p)) 0 ∗ semVal (recvCell c (posSlot p)) 0 ∗ owes (c : Thread nD τ) (Ot c k₀) W')
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 ss a₁ b₁ ha₁ hb₁) fun _ => .op (.waitDma2 rs a₂ b₂ ha₂ hb₂) k) Q) := by
  subst hss hrs
  have hN₁ : b₁.view.dmaCredit = N := rfl
  have hN₂ : b₂.view.dmaCredit = N := rfl
  unfold invs
  rw [bigSep_univ_at _ (posSlot p)]
  iintro ⟨⟨-, -, -, ⟨#HI1, #HI2, -⟩, -⟩, #Hlev, HcS, HcR, HatS, HatR, HO⟩ Hk
  iapply (Rounds.wp_wait_rest_token 𝒱₀ ER (treeRd m ρ) (c : Thread nD τ) none (κ := K (c, kS (posSlot p)))
      (sm := .dma (sendSem (posSlot p))) (k' := N)
      (fun K' => (wpE_waitDma2_eq 𝒱₀ (c : Thread nD τ) none Set.univ K').trans (by rw [hN₁]))
      (Set.mem_univ _) () (O := Ot c k₀) (W := W) (R := 0) (m := 0) (T := ∅)
      (by rw [Nat.zero_add, expect_send])) $$ [HcS HO HatS]
  · isplitr; · iexact HI1
    isplitl [HcS]; · iexact HcS
    isplitl [HO]; · iexact HO
    isplitr; · iapply (mayWait_send c (posSlot p) k₀); iexact Hlev
    iexact HatS
  iintro ⟨HO, HatS, -, HpayS⟩
  ihave HpS := (Entails.of_eq (rest_send m ρ c (posSlot p))) $$ HpayS
  iapply (Rounds.wp_wait_rest_token 𝒱₀ ER (treeRd m ρ) (c : Thread nD τ) none (κ := K (c, kR (posSlot p)))
      (sm := .dma (recvSem (posSlot p))) (k' := N)
      (fun K' => (wpE_waitDma2_eq 𝒱₀ (c : Thread nD τ) none Set.univ K').trans (by rw [hN₂]))
      (Set.mem_univ _) () (O := Ot c k₀) (W := insert (SemLoc.dma (sendSem (posSlot p)), ()) W) (R := 0) (m := 0) (T := ∅)
      (by rw [Nat.zero_add, expect_recv])) $$ [HcR HO HatR]
  · isplitr; · iexact HI2
    isplitl [HcR]; · iexact HcR
    isplitl [HO]; · iexact HO
    isplitr; · iapply (mayWait_recv c p k₀ hk); iexact Hlev
    iexact HatR
  iintro ⟨HO, HatR, -, HpayR⟩
  ihave HpR := (Entails.of_eq (rest_recv m ρ c (posSlot p))) $$ HpayR
  imod (Rounds.cell_close ER (treeRd m ρ) (Set.mem_univ (K (c, kS (posSlot p)))) (fun h => h) (R := 0 + 1)
      (duties_later m ρ (sendCell c (posSlot p)))) $$ [HatS] with HzS
  · isplitr; · iexact HI1
    iexact HatS
  imod (Rounds.cell_close ER (treeRd m ρ) (Set.mem_univ (K (c, kR (posSlot p)))) (fun h => h) (R := 0 + 1)
      (duties_later m ρ (recvCell c (posSlot p)))) $$ [HatR] with HzR
  · isplitr; · iexact HI2
    iexact HatR
  iapply Hk $$ %(insert (SemLoc.dma (recvSem (posSlot p)), ()) (insert (SemLoc.dma (sendSem (posSlot p)), ()) W))
  isplitl [HpS]; · iexact HpS
  isplitl [HpR]; · iexact HpR
  isplitl [HzS]; · iexact HzS
  isplitl [HzR]; · iexact HzR
  iexact HO

end Cert.KernelIdeal.Tree

end
-- ==== Proof.MeshFacts.lean ====
import proofs.«900333_g7700000000000334_dist_treered_v7x_i4_m512_n512_f32_1_alg».proof.Proof.Basic
import proofs.«900333_g7700000000000334_dist_treered_v7x_i4_m512_n512_f32_1_alg».proof.Proof.Gen.KernelIdeal

set_option Elab.async false

noncomputable section

namespace Cert.KernelIdeal.Tree

open Cert.KernelIdeal Cert.KernelIdeal.Gen Idealize.ShloMosaic Idealize.SL.Sem

theorem dev1_eq (c : Dev nD) : (⟨k0_dev1 c, k0_dev1_lt c⟩ : Dev nD) = p1 c := by revert c; decide +kernel
theorem dev2_eq (c : Dev nD) : (⟨k0_dev2 c, k0_dev2_lt c⟩ : Dev nD) = p2 c := by revert c; decide +kernel

theorem dev3_eq_pt (c : Dev nD) : (⟨k0_dev3 c, k0_dev3_lt c⟩ : Dev nD) = pt c 0 0 := by revert c; decide +kernel
theorem dev4_eq_pt (c : Dev nD) : (⟨k0_dev4 c, k0_dev4_lt c⟩ : Dev nD) = pt c 0 1 := by revert c; decide +kernel
theorem dev5_eq_pt (c : Dev nD) : (⟨k0_dev5 c, k0_dev5_lt c⟩ : Dev nD) = pt c 0 0 := by revert c; decide +kernel
theorem dev6_eq_pt (c : Dev nD) : (⟨k0_dev6 c, k0_dev6_lt c⟩ : Dev nD) = pt c 0 1 := by revert c; decide +kernel
theorem dev7_eq_pt (c : Dev nD) : (⟨k0_dev7 c, k0_dev7_lt c⟩ : Dev nD) = pt c 0 0 := by revert c; decide +kernel
theorem dev8_eq_pt (c : Dev nD) : (⟨k0_dev8 c, k0_dev8_lt c⟩ : Dev nD) = pt c 0 1 := by revert c; decide +kernel
theorem dev9_eq_pt (c : Dev nD) : (⟨k0_dev9 c, k0_dev9_lt c⟩ : Dev nD) = pt c 0 0 := by revert c; decide +kernel
theorem dev10_eq_pt (c : Dev nD) : (⟨k0_dev10 c, k0_dev10_lt c⟩ : Dev nD) = pt c 0 1 := by revert c; decide +kernel
theorem dev11_eq_pt (c : Dev nD) : (⟨k0_dev11 c, k0_dev11_lt c⟩ : Dev nD) = pt c 1 0 := by revert c; decide +kernel
theorem dev12_eq_pt (c : Dev nD) : (⟨k0_dev12 c, k0_dev12_lt c⟩ : Dev nD) = pt c 1 1 := by revert c; decide +kernel
theorem dev13_eq_pt (c : Dev nD) : (⟨k0_dev13 c, k0_dev13_lt c⟩ : Dev nD) = pt c 1 0 := by revert c; decide +kernel
theorem dev14_eq_pt (c : Dev nD) : (⟨k0_dev14 c, k0_dev14_lt c⟩ : Dev nD) = pt c 1 1 := by revert c; decide +kernel
theorem dev15_eq_pt (c : Dev nD) : (⟨k0_dev15 c, k0_dev15_lt c⟩ : Dev nD) = pt c 1 0 := by revert c; decide +kernel
theorem dev16_eq_pt (c : Dev nD) : (⟨k0_dev16 c, k0_dev16_lt c⟩ : Dev nD) = pt c 1 1 := by revert c; decide +kernel
theorem dev17_eq_pt (c : Dev nD) : (⟨k0_dev17 c, k0_dev17_lt c⟩ : Dev nD) = pt c 1 0 := by revert c; decide +kernel
theorem dev18_eq_pt (c : Dev nD) : (⟨k0_dev18 c, k0_dev18_lt c⟩ : Dev nD) = pt c 1 1 := by revert c; decide +kernel
theorem dev19_eq_pt (c : Dev nD) : (⟨k0_dev19 c, k0_dev19_lt c⟩ : Dev nD) = pt c 2 0 := by revert c; decide +kernel
theorem dev20_eq_pt (c : Dev nD) : (⟨k0_dev20 c, k0_dev20_lt c⟩ : Dev nD) = pt c 2 1 := by revert c; decide +kernel
theorem dev21_eq_pt (c : Dev nD) : (⟨k0_dev21 c, k0_dev21_lt c⟩ : Dev nD) = pt c 2 0 := by revert c; decide +kernel
theorem dev22_eq_pt (c : Dev nD) : (⟨k0_dev22 c, k0_dev22_lt c⟩ : Dev nD) = pt c 2 1 := by revert c; decide +kernel
theorem dev23_eq_pt (c : Dev nD) : (⟨k0_dev23 c, k0_dev23_lt c⟩ : Dev nD) = pt c 2 0 := by revert c; decide +kernel
theorem dev24_eq_pt (c : Dev nD) : (⟨k0_dev24 c, k0_dev24_lt c⟩ : Dev nD) = pt c 2 1 := by revert c; decide +kernel
theorem dev25_eq_pt (c : Dev nD) : (⟨k0_dev25 c, k0_dev25_lt c⟩ : Dev nD) = pt c 2 0 := by revert c; decide +kernel
theorem dev26_eq_pt (c : Dev nD) : (⟨k0_dev26 c, k0_dev26_lt c⟩ : Dev nD) = pt c 2 1 := by revert c; decide +kernel

theorem off1_eq (c : Dev nD) (r : Fin 4) : k0_off1 c (BitVec.ofNat 32 (32 * r.val)) = ![0, 32 * sendCh c 0 r, 0] := by
  funext a; revert c r a; decide +kernel
theorem off2_eq (c : Dev nD) (r : Fin 4) : k0_off2 c (BitVec.ofNat 32 (32 * r.val)) = ![0, 32 * sendCh c 1 r, 0] := by
  funext a; revert c r a; decide +kernel
theorem off3_eq (c : Dev nD) (r : Fin 4) : k0_off3 c (BitVec.ofNat 32 (32 * r.val)) = ![0, 32 * keepCh c 0 r, 0] := by
  funext a; revert c r a; decide +kernel
theorem off4_eq (c : Dev nD) (r : Fin 4) : k0_off4 c (BitVec.ofNat 32 (32 * r.val)) = ![32 * keepCh c 0 r, 0] := by
  funext a; revert c r a; decide +kernel
theorem off5_eq (c : Dev nD) (r : Fin 4) : k0_off5 c (BitVec.ofNat 32 (32 * r.val)) = ![32 * keepCh c 0 r, 0] := by
  funext a; revert c r a; decide +kernel
theorem off6_eq (c : Dev nD) (r : Fin 4) : k0_off6 c (BitVec.ofNat 32 (32 * r.val)) = ![0, 32 * keepCh c 1 r, 0] := by
  funext a; revert c r a; decide +kernel
theorem off7_eq (c : Dev nD) (r : Fin 4) : k0_off7 c (BitVec.ofNat 32 (32 * r.val)) = ![32 * keepCh c 1 r, 0] := by
  funext a; revert c r a; decide +kernel
theorem off8_eq (c : Dev nD) (r : Fin 4) : k0_off8 c (BitVec.ofNat 32 (32 * r.val)) = ![32 * keepCh c 1 r, 0] := by
  funext a; revert c r a; decide +kernel
theorem off9_eq (c : Dev nD) (r : Fin 4) : k0_off9 c (BitVec.ofNat 32 (32 * r.val)) = ![32 * sendCh c 0 r, 0] := by
  funext a; revert c r a; decide +kernel
theorem off10_eq (c : Dev nD) (r : Fin 4) : k0_off10 c (BitVec.ofNat 32 (32 * r.val)) = ![32 * sendCh c 1 r, 0] := by
  funext a; revert c r a; decide +kernel

theorem slot_inb (n : Fin 24) : ∀ a, (![n.val] : Fin 1 → ℕ) a + S1.size a ≤ S24.size a := by revert n; decide

/-- Slot `n` of the senders' semaphore array is semaphore `2 + n` of the pool. -/
theorem sendSem_eq (n : Fin 24) :
    ((cc0_scratch1.slice (Rect.unit (s := S24) ![n.val] S1.size (slot_inb n))).squeeze S_ squeezes_S1_S_).sem = sendSem n := by
  revert n; decide +kernel
/-- Slot `n` of the receivers' array is semaphore `26 + n`. -/
theorem recvSem_eq (n : Fin 24) :
    ((cc0_scratch2.slice (Rect.unit (s := S24) ![n.val] S1.size (slot_inb n))).squeeze S_ squeezes_S1_S_).sem = recvSem n := by
  revert n; decide +kernel

end Cert.KernelIdeal.Tree

end
-- ==== Proof.LibOwns.lean ====
import Idealize.ShloMosaic.Lib.Memref
import Idealize.ShloMosaic.PureOps.ShapeOps

noncomputable section

namespace Idealize.ShloMosaic.OwnsLib

open Idealize.ShloMosaic
open Idealize.SL
open Idealize.SL.RA Idealize.SL.Sem Idealize.SL.ProofMode
open Idealize.SL.BI (sProp bigSep bigSep_insert bigSep_mono bigSep_empty bigSep_congr)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U]
variable {Lvl : Type} {Λ : Labels}

local notation "𝕄" => MT nD τ sig Ix Val Name U Lvl

/-- A load through a rectangle whose slice is owned returns the owned contents. -/
theorem wp_load_slice [Preorder Lvl] {defs : Defs nD τ sig Val Λ} (𝒱 : Variants) (c : Thread nD τ)
    (bd : Option 𝒱.V) {Γ : PendingWaitsCtx sig Ix} (E : Set Name) {s : Shape} {e : EltTy} {α : Type}
    {Q : α → sProp 𝕄} {cs : CoreSpace} (m : Memref sig c.2.kind cs s e) (r : Rect s) (hr : ∀ a, r.stride a = 1)
    (q : PosShare TreeShare) (X : r.shape.Idx → Val e) (hl : m.view.LoadsAt r.toLoadRect)
    (k : (r.shape.Idx → Val e) → Prog (TpuEff nD τ sig Val Λ c.2) α) :
    (owns c (m.slice r hr) q X : sProp 𝕄)
      ⊢ iprop((owns c (m.slice r hr) q X -∗ wp frame (wpE' defs 𝒱 c bd Γ) E (k X) Q)
          -∗ wp frame (wpE' defs 𝒱 c bd Γ) E (.op (.load m r.toLoadRect hl) k) Q) := by
  unfold owns
  iintro ⟨%f, %hf, H⟩ Hk
  have hS : m.view.setOn r.toLoadRect.set ⊆ (m.slice r hr).view.set := (View.set_slice m.view r).ge
  iapply (wp_load 𝒱 c bd E (m := m) (r := r.toLoadRect) (hl := hl) (k := k) (S := (m.slice r hr).view.set)
    (q := q) (f := f) hS) $$ H
  iintro H
  have hX : m.view.readAt Val r.toLoadRect f = X := hf
  rw [hX]
  iapply Hk
  iexists f
  isplitr
  · ipureintro; exact hf
  · iexact H

/-- A full store through a rectangle whose slice is owned leaves the slice owned at the stored value. -/
theorem wp_store_slice [Preorder Lvl] {defs : Defs nD τ sig Val Λ} (𝒱 : Variants) (c : Thread nD τ)
    (bd : Option 𝒱.V) {Γ : PendingWaitsCtx sig Ix} (E : Set Name) {s : Shape} {e : EltTy} {α : Type}
    {Q : α → sProp 𝕄} {cs : CoreSpace} (m : Memref sig c.2.kind cs s e) (r : Rect s) (hr : ∀ a, r.stride a = 1)
    (X w : r.shape.Idx → Val e) (hx : (m.access r).Stores Finset.univ)
    (hm : (Finset.univ : Finset r.shape.Idx) = Finset.univ ∨ ∀ a, r.stride a = 1)
    (k : PUnit → Prog (TpuEff nD τ sig Val Λ c.2) α) :
    (owns c (m.slice r hr) fullShare X : sProp 𝕄)
      ⊢ iprop((owns c (m.slice r hr) fullShare w -∗ wp frame (wpE' defs 𝒱 c bd Γ) E (k ⟨⟩) Q)
          -∗ wp frame (wpE' defs 𝒱 c bd Γ) E (.op (.store m r w Finset.univ hx hm) k) Q) := by
  unfold owns
  iintro ⟨%f, %hf, H⟩ Hk
  have hS : (m.access r).setOn Finset.univ ⊆ (m.slice r hr).view.set := Finset.Subset.refl _
  iapply (wp_store 𝒱 c bd E (m := m) (r := r) (w := w) (Mk := Finset.univ) (hx := hx) (hm := hm) (k := k)
    (S := (m.slice r hr).view.set) (f := f) hS) $$ H
  iintro H
  iapply Hk
  iexists (m.access r).write Val f w Finset.univ
  isplitr
  · ipureintro; exact View.read_write_univ f w
  · iexact H

theorem read_squeeze {κ : Kind} {sp : Space} {s s' : Shape} {e : EltTy} (m : Memref sig κ sp s e) (h : s.Squeezes s')
    (f : m.view.ty.Contents Val) :
    (m.squeeze s' h).view.read Val f = fun j => m.view.read Val f (Shape.reshapeEquiv h.numel_eq j) := rfl

theorem owns_squeeze_intro (c : Thread nD τ) {sp : Space} {s s' : Shape} {e : EltTy} (m : Memref sig c.2.kind sp s e)
    (h : s.Squeezes s') (q : PosShare TreeShare) (X : s.Idx → Val e) :
    (owns c m q X : sProp 𝕄) ⊢ owns c (m.squeeze s' h) q (fun j => X (Shape.reshapeEquiv h.numel_eq j)) := by
  unfold owns
  iintro ⟨%f, %hf, H⟩
  iexists f
  isplitr
  · ipureintro; rw [read_squeeze, hf]
  · have hset : (m.squeeze s' h).view.set = m.view.set := View.set_reshape m.view h.numel_eq
    rw [hset]; iexact H

theorem owns_squeeze_symm (c : Thread nD τ) {sp : Space} {s s' : Shape} {e : EltTy} (m : Memref sig c.2.kind sp s e)
    (h : s.Squeezes s') (q : PosShare TreeShare) (Y : s'.Idx → Val e) :
    (owns c (m.squeeze s' h) q Y : sProp 𝕄) ⊢ owns c m q (fun i => Y ((Shape.reshapeEquiv h.numel_eq).symm i)) := by
  unfold owns
  iintro ⟨%f, %hf, H⟩
  iexists f
  isplitr
  · ipureintro
    funext i
    rw [← congrFun hf ((Shape.reshapeEquiv h.numel_eq).symm i)]
    show m.view.read Val f i
      = m.view.read Val f (Shape.reshapeEquiv h.numel_eq ((Shape.reshapeEquiv h.numel_eq).symm i))
    rw [Equiv.apply_symm_apply]
  · have hset : (m.squeeze s' h).view.set = m.view.set := View.set_reshape m.view h.numel_eq
    rw [hset]; iexact H

/-- Owning a squeezed view is owning the view itself, at contents reindexed along the reshape. -/
theorem owns_squeeze_elim (c : Thread nD τ) {sp : Space} {s s' : Shape} {e : EltTy} (m : Memref sig c.2.kind sp s e)
    (h : s.Squeezes s') (q : PosShare TreeShare) (Y : s'.Idx → Val e) :
    (owns c (m.squeeze s' h) q Y : sProp 𝕄)
      ⊢ iprop(∃ X : s.Idx → Val e, ⌜(fun j => X (Shape.reshapeEquiv h.numel_eq j)) = Y⌝ ∗ owns c m q X) := by
  iintro H
  iexists fun i => Y ((Shape.reshapeEquiv h.numel_eq).symm i)
  isplitr
  · ipureintro
    funext j
    show Y ((Shape.reshapeEquiv h.numel_eq).symm (Shape.reshapeEquiv h.numel_eq j)) = Y j
    rw [Equiv.symm_apply_apply]
  · iapply (owns_squeeze_symm c m h q Y); iexact H

end Idealize.ShloMosaic.OwnsLib

end
-- ==== Proof.StepDefs.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Prims
import proofs.«900333_g7700000000000334_dist_treered_v7x_i4_m512_n512_f32_1_alg».proof.Proof.LibOwns
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.OwnsLib

local notation "𝕄" => MT nD τ sig Unit (Elt F) ℕ UU ℕ

variable (m : (ℓ : Loc nD τ sig) → Buf (Elt F) ℓ) (ρ : Dev nD → PrngReg)

abbrev WP (c : Dev nD) {α : Type} (prog : Prog (TpuEff nD τ sig (Elt F) Λ₀ .tc) α) (Q : α → sProp 𝕄) : sProp 𝕄 :=
  wp frame (wpE (defs₀ (F := F)) 𝒱₀ (c : Thread nD τ) none) Set.univ prog Q

theorem oS_of_off {off : Fin 2 → ℕ} {h : ∀ a, off a + S32x512.size a ≤ S512x512.size a} (j : Fin 16)
    (e : off = ![32 * j.val, 0]) :
    oM.slice (Rect.unit (s := S512x512) off S32x512.size h) (fun _ => rfl) = oS j := by subst e; rfl

end Cert.KernelIdeal.Tree

end
-- ==== Proof.Step1.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.StepDefs
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.OwnsLib

local notation "𝕄" => MT nD τ sig Unit (Elt F) ℕ UU ℕ

variable (m : (ℓ : Loc nD τ sig) → Buf (Elt F) ℓ) (ρ : Dev nD → PrngReg)

/-- Round 0 ends: kept input chunk plus received chunk is stored in the result and sent on to the round-1 partner. -/
theorem step1 (K : Dev nD × Fin 49 → ℕ) (c : Dev nD) (blk : Fin 2) (ch : Fin 4) (p0 p1 : Fin 24)
    (hp0 : posSlot p0 = slotF 0 blk ch) (hp1 : posSlot p1 = slotF 1 blk ch) (h8 : 8 ≤ p1.val) (hp0lt : p0.val < 8)
    {ss rs : DmaSem sig} (hss : ss = sendSem (slotF 0 blk ch)) (hrs : rs = recvSem (slotF 0 blk ch))
    {a₁ b₁ a₂ b₂ : Memref sig .tc .vmem S32x512 .f32}
    {ha₁ : a₁.view.WordExact} {hb₁ : b₁.view.WordExact} {ha₂ : a₂.view.WordExact} {hb₂ : b₂.view.WordExact}
    {offx : Fin 3 → ℕ} {hinx : ∀ a, offx a + S1x32x512.size a ≤ S1x512x512.size a} (hoffx : offx = ![0, 32 * keepCh c blk ch, 0])
    {hlx : xM.view.LoadsAt (Rect.unit (s := S1x512x512) offx S1x32x512.size hinx).toLoadRect}
    {offr : Fin 3 → ℕ} {hinr : ∀ a, offr a + S1x32x512.size a ≤ S24x32x512.size a} (hoffr : offr = ![slot 0 blk ch, 0, 0])
    {hlr : rM.view.LoadsAt (Rect.unit (s := S24x32x512) offr S1x32x512.size hinr).toLoadRect}
    {offo : Fin 2 → ℕ} {hino hino' : ∀ a, offo a + S32x512.size a ≤ S512x512.size a} (hoffo : offo = ![32 * keepCh c blk ch, 0])
    {hlo : oM.view.LoadsAt (Rect.unit (s := S512x512) offo S32x512.size hino).toLoadRect}
    {hst : (oM.access (Rect.unit (s := S512x512) offo S32x512.size hino')).Stores Finset.univ}
    {hmk : (Finset.univ : Finset (Rect.unit (s := S512x512) offo S32x512.size hino').shape.Idx) = Finset.univ ∨ ∀ a, (Rect.unit (s := S512x512) offo S32x512.size hino').stride a = 1}
    {pay : Vec F S1x32x512 .f32 → Vec F S1x32x512 .f32 → FVec F S32x512 .f32}
    (hpay : ∀ a b, pay a b = addf (shapeCast S32x512 a shapeCasts_S1x32x512_S32x512) (shapeCast S32x512 b shapeCasts_S1x32x512_S32x512))
    {src dst : Memref sig .tc .vmem S32x512 .f32} {dv : Dev nD} {ss' rs' : DmaSem sig}
    (hsrcE : src = oS (keepF c blk ch)) (hdv : dv = pt c 1 blk) (hdstE : dst = rQ (slotF 1 blk ch))
    (hss' : ss' = sendSem (slotF 1 blk ch)) (hrs' : rs' = recvSem (slotF 1 blk ch))
    {hsc : dst.view.ref.isScScratch = false} {hsrc : src.view.WordExact} {hdst : dst.view.WordExact}
    {hsem : DmaTarget.Typed .vmem (.dma rs') (.remote (Dev.tc dv : Thread nD τ) dst (.dma ss') hsc)}
    {α : Type} {Q : α → sProp 𝕄} {k : PUnit → Prog (TpuEff nD τ sig (Elt F) Λ₀ .tc) α} (W : Waits sig Unit) :
    iprop(invs m ρ K c ∗ marks c ∗ levAts L lv
        ∗ cred (tallyAt (sendCell c (slotF 0 blk ch)) () N) ∗ cred (tallyAt (recvCell c (slotF 0 blk ch)) () N)
        ∗ atPos ER (sendCell c (slotF 0 blk ch)) 0 ∅ 0 ∗ atPos ER (recvCell c (slotF 0 blk ch)) 0 ∅ 0
        ∗ ownsTc c (xS (keepF c blk ch)) fullShare (xv m ρ c (keepF c blk ch))
        ∗ (∃ V, ownsTc c (oS (keepF c blk ch)) fullShare V)
        ∗ dutyTok ER (sendCell c (slotF 1 blk ch)) 0 false ∗ dutyTok ER (recvCell (pt c 1 blk) (slotF 1 blk ch)) 0 false
        ∗ slotGift (pt c 1 blk) (slotF 1 blk ch)
        ∗ owes (c : Thread nD τ) (Ot c p1.val) W)
      ⊢ iprop((∀ W', (ownsTc c (xQ (sendF c blk ch)) fullShare (xq m ρ c (sendF c blk ch))
              ∗ (∃ V, ownsTc c (rS (slotF 0 blk ch)) fullShare V)
              ∗ semVal (sendCell c (slotF 0 blk ch)) 0 ∗ semVal (recvCell c (slotF 0 blk ch)) 0
              ∗ ownsTc c (xS (keepF c blk ch)) fullShare (xv m ρ c (keepF c blk ch))
              ∗ cred (tallyAt (sendCell c (slotF 1 blk ch)) () N)
              ∗ owes (c : Thread nD τ) (Ot c (p1.val + 1)) W') -∗ WP c (k ⟨⟩) Q)
          -∗ WP c (.op (.waitDma2 ss a₁ b₁ ha₁ hb₁) fun _ => .op (.waitDma2 rs a₂ b₂ ha₂ hb₂) fun _ =>
              .op (.load xM (Rect.unit (s := S1x512x512) offx S1x32x512.size hinx).toLoadRect hlx) fun vx =>
              .op (.load rM (Rect.unit (s := S24x32x512) offr S1x32x512.size hinr).toLoadRect hlr) fun vr =>
              .op (.load oM (Rect.unit (s := S512x512) offo S32x512.size hino).toLoadRect hlo) fun _ =>
              .op (.store oM (Rect.unit (s := S512x512) offo S32x512.size hino') (pay vx vr) Finset.univ hst hmk) fun _ =>
              .op (.enqueueDma src (.remote (Dev.tc dv : Thread nD τ) dst (.dma ss') hsc) (.dma rs') hsrc hdst hsem) k) Q) := by
  subst hss hrs hoffx hoffr hoffo
  have hk : 8 * (p0.val / 8 + 1) ≤ p1.val := by omega
  have eS : sendPay m ρ c (slotF 0 blk ch) = ownsTc c (xQ (sendF c blk ch)) fullShare (xq m ρ c (sendF c blk ch)) := by
    unfold sendPay; rw [rndOf_slotF, blkOf_slotF, chOf_slotF]; rfl
  have eR : recvPay m ρ c (slotF 0 blk ch)
      = ownsTc c (rQ (slotF 0 blk ch)) fullShare (xq m ρ (pt c 0 blk) (sendF (pt c 0 blk) blk ch)) := by
    unfold recvPay; rw [rndOf_slotF, blkOf_slotF, chOf_slotF]; rfl
  have hw := wp_wait2 m ρ K c p0 p1.val hk (ss := sendSem (slotF 0 blk ch)) (rs := recvSem (slotF 0 blk ch))
    (by rw [hp0]) (by rw [hp0]) (ha₁ := ha₁) (hb₁ := hb₁) (ha₂ := ha₂) (hb₂ := hb₂) (Q := Q)
    (k := fun _ => .op (.load xM (Rect.unit (s := S1x512x512) _ S1x32x512.size hinx).toLoadRect hlx) fun vx =>
              .op (.load rM (Rect.unit (s := S24x32x512) _ S1x32x512.size hinr).toLoadRect hlr) fun vr =>
              .op (.load oM (Rect.unit (s := S512x512) _ S32x512.size hino).toLoadRect hlo) fun _ =>
              .op (.store oM (Rect.unit (s := S512x512) _ S32x512.size hino') (pay vx vr) Finset.univ hst hmk) fun _ =>
              .op (.enqueueDma src (.remote (Dev.tc dv : Thread nD τ) dst (.dma ss') hsc) (.dma rs') hsrc hdst hsem) k) W
  rw [hp0, eS, eR] at hw
  iintro ⟨#HI, #HM, #Hlev, HcS, HcR, HatS, HatR, Hx, Ho, HtS, HtR, Hgift, HO⟩ Hk
  iapply hw $$ [$]
  iintro %W' ⟨HpS, HpR, HzS, HzR, HO⟩
  ihave HpR' := (owns_squeeze_elim (c : Thread nD τ) (rS (slotF 0 blk ch)) squeezes_S1x32x512_S32x512 fullShare
    (xq m ρ (pt c 0 blk) (sendF (pt c 0 blk) blk ch))) $$ HpR
  icases HpR' with ⟨%Vr, %hVr, Hr⟩
  icases Ho with ⟨%V0, Ho⟩
  iapply (wp_load_slice 𝒱₀ (c : Thread nD τ) none (Γ := .empty) Set.univ xM
    (Rect.unit (s := S1x512x512) ![0, 32 * keepCh c blk ch, 0] S1x32x512.size hinx) (fun _ => rfl) fullShare
    (xv m ρ c (keepF c blk ch)) hlx _) $$ [Hx]
  · iexact Hx
  iintro Hx
  iapply (wp_load_slice 𝒱₀ (c : Thread nD τ) none (Γ := .empty) Set.univ rM
    (Rect.unit (s := S24x32x512) ![slot 0 blk ch, 0, 0] S1x32x512.size hinr) (fun _ => rfl) fullShare
    Vr hlr _) $$ [Hr]
  · iexact Hr
  iintro Hr
  iapply (wp_load_slice 𝒱₀ (c : Thread nD τ) none (Γ := .empty) Set.univ oM
    (Rect.unit (s := S512x512) ![32 * keepCh c blk ch, 0] S32x512.size hino) (fun _ => rfl) fullShare
    V0 hlo _) $$ [Ho]
  · iexact Ho
  iintro Ho
  iapply (wp_store_slice 𝒱₀ (c : Thread nD τ) none (Γ := .empty) Set.univ oM
    (Rect.unit (s := S512x512) ![32 * keepCh c blk ch, 0] S32x512.size hino') (fun _ => rfl)
    V0 (pay (xv m ρ c (keepF c blk ch)) Vr) hst hmk _) $$ [Ho]
  · iexact Ho
  iintro Ho
  have hval : pay (xv m ρ c (keepF c blk ch)) Vr = a0 m ρ c blk ch := by
    rw [hpay]
    have e2 : shapeCast S32x512 Vr shapeCasts_S1x32x512_S32x512 = xq m ρ (pt c 0 blk) (sendF (pt c 0 blk) blk ch) := hVr
    rw [e2]
    rfl
  rw [hval]
  have eS1 : sendPay m ρ c (slotF 1 blk ch) = ownsTc c (oS (keepF c blk ch)) fullShare (a0 m ρ c blk ch) := by
    unfold sendPay; rw [rndOf_slotF, blkOf_slotF, chOf_slotF]; rfl
  have he := wp_enq m ρ K c p1 (src := src) (dv := dv) (dst := dst) (ss := ss') (rs := rs')
    (hsrcE.trans (by rw [hp1, rndOf_slotF, blkOf_slotF, chOf_slotF]; rfl)) (hdv.trans (by rw [hp1, ptS_slotF]))
    (hdstE.trans (by rw [hp1])) (hss'.trans (by rw [hp1])) (hrs'.trans (by rw [hp1]))
    (hsc := hsc) (hsrc := hsrc) (hdst := hdst) (hsem := hsem) (Q := Q) (k := k) W'
  rw [hp1, ptS_slotF, eS1] at he
  iapply he $$ [HtS HtR Ho Hgift HO]
  · iframe # ∗; iexact Ho
  iintro ⟨Hc1, HO⟩
  iapply Hk $$ %W'
  iframe
  isplitl [Hr]; · iexists Vr; iexact Hr
  iexact Hx

end Cert.KernelIdeal.Tree

end
-- ==== Proof.Step2.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.StepDefs
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.OwnsLib

local notation "𝕄" => MT nD τ sig Unit (Elt F) ℕ UU ℕ

variable (m : (ℓ : Loc nD τ sig) → Buf (Elt F) ℓ) (ρ : Dev nD → PrngReg)

/-- Round 1 ends: the received partial sum is added to the kept chunk, which is sent to the round-2 partner. -/
theorem step2 (K : Dev nD × Fin 49 → ℕ) (c : Dev nD) (blk : Fin 2) (ch : Fin 4) (p1 p2 : Fin 24)
    (hp1 : posSlot p1 = slotF 1 blk ch) (hp2 : posSlot p2 = slotF 2 blk ch) (h16 : 16 ≤ p2.val) (hp1lt : p1.val < 16)
    {ss rs : DmaSem sig} (hss : ss = sendSem (slotF 1 blk ch)) (hrs : rs = recvSem (slotF 1 blk ch))
    {a₁ b₁ a₂ b₂ : Memref sig .tc .vmem S32x512 .f32}
    {ha₁ : a₁.view.WordExact} {hb₁ : b₁.view.WordExact} {ha₂ : a₂.view.WordExact} {hb₂ : b₂.view.WordExact}
    {offo : Fin 2 → ℕ} {hino hino₂ hino' : ∀ a, offo a + S32x512.size a ≤ S512x512.size a} (hoffo : offo = ![32 * keepCh c blk ch, 0])
    {hlo : oM.view.LoadsAt (Rect.unit (s := S512x512) offo S32x512.size hino).toLoadRect}
    {offr : Fin 3 → ℕ} {hinr : ∀ a, offr a + S1x32x512.size a ≤ S24x32x512.size a} (hoffr : offr = ![slot 1 blk ch, 0, 0])
    {hlr : rM.view.LoadsAt (Rect.unit (s := S24x32x512) offr S1x32x512.size hinr).toLoadRect}
    {hlo₂ : oM.view.LoadsAt (Rect.unit (s := S512x512) offo S32x512.size hino₂).toLoadRect}
    {hst : (oM.access (Rect.unit (s := S512x512) offo S32x512.size hino')).Stores Finset.univ}
    {hmk : (Finset.univ : Finset (Rect.unit (s := S512x512) offo S32x512.size hino').shape.Idx) = Finset.univ ∨ ∀ a, (Rect.unit (s := S512x512) offo S32x512.size hino').stride a = 1}
    {pay : Vec F S32x512 .f32 → Vec F S1x32x512 .f32 → FVec F S32x512 .f32}
    (hpay : ∀ a b, pay a b = addf (shapeCast S32x512 a shapeCasts_S32x512_S32x512) (shapeCast S32x512 b shapeCasts_S1x32x512_S32x512))
    {src dst : Memref sig .tc .vmem S32x512 .f32} {dv : Dev nD} {ss' rs' : DmaSem sig}
    (hsrcE : src = oS (keepF c blk ch)) (hdv : dv = pt c 2 blk) (hdstE : dst = rQ (slotF 2 blk ch))
    (hss' : ss' = sendSem (slotF 2 blk ch)) (hrs' : rs' = recvSem (slotF 2 blk ch))
    {hsc : dst.view.ref.isScScratch = false} {hsrc : src.view.WordExact} {hdst : dst.view.WordExact}
    {hsem : DmaTarget.Typed .vmem (.dma rs') (.remote (Dev.tc dv : Thread nD τ) dst (.dma ss') hsc)}
    {α : Type} {Q : α → sProp 𝕄} {k : PUnit → Prog (TpuEff nD τ sig (Elt F) Λ₀ .tc) α} (W : Waits sig Unit) :
    iprop(invs m ρ K c ∗ marks c ∗ levAts L lv
        ∗ cred (tallyAt (sendCell c (slotF 1 blk ch)) () N) ∗ cred (tallyAt (recvCell c (slotF 1 blk ch)) () N)
        ∗ atPos ER (sendCell c (slotF 1 blk ch)) 0 ∅ 0 ∗ atPos ER (recvCell c (slotF 1 blk ch)) 0 ∅ 0
        ∗ dutyTok ER (sendCell c (slotF 2 blk ch)) 0 false ∗ dutyTok ER (recvCell (pt c 2 blk) (slotF 2 blk ch)) 0 false
        ∗ slotGift (pt c 2 blk) (slotF 2 blk ch)
        ∗ owes (c : Thread nD τ) (Ot c p2.val) W)
      ⊢ iprop((∀ W', ((∃ V, ownsTc c (rS (slotF 1 blk ch)) fullShare V)
              ∗ semVal (sendCell c (slotF 1 blk ch)) 0 ∗ semVal (recvCell c (slotF 1 blk ch)) 0
              ∗ cred (tallyAt (sendCell c (slotF 2 blk ch)) () N)
              ∗ owes (c : Thread nD τ) (Ot c (p2.val + 1)) W') -∗ WP c (k ⟨⟩) Q)
          -∗ WP c (.op (.waitDma2 ss a₁ b₁ ha₁ hb₁) fun _ => .op (.waitDma2 rs a₂ b₂ ha₂ hb₂) fun _ =>
              .op (.load oM (Rect.unit (s := S512x512) offo S32x512.size hino).toLoadRect hlo) fun vo =>
              .op (.load rM (Rect.unit (s := S24x32x512) offr S1x32x512.size hinr).toLoadRect hlr) fun vr =>
              .op (.load oM (Rect.unit (s := S512x512) offo S32x512.size hino₂).toLoadRect hlo₂) fun _ =>
              .op (.store oM (Rect.unit (s := S512x512) offo S32x512.size hino') (pay vo vr) Finset.univ hst hmk) fun _ =>
              .op (.enqueueDma src (.remote (Dev.tc dv : Thread nD τ) dst (.dma ss') hsc) (.dma rs') hsrc hdst hsem) k) Q) := by
  subst hss hrs hoffo hoffr hsrcE hdv hdstE hss' hrs'
  have hk : 8 * (p1.val / 8 + 1) ≤ p2.val := by omega
  have eS : sendPay m ρ c (slotF 1 blk ch) = ownsTc c (oS (keepF c blk ch)) fullShare (a0 m ρ c blk ch) := by
    unfold sendPay; rw [rndOf_slotF, blkOf_slotF, chOf_slotF]; rfl
  have eR : recvPay m ρ c (slotF 1 blk ch) = ownsTc c (rQ (slotF 1 blk ch)) fullShare (a0 m ρ (pt c 1 blk) blk ch) := by
    unfold recvPay; rw [rndOf_slotF, blkOf_slotF, chOf_slotF]; rfl
  have eS2 : sendPay m ρ c (slotF 2 blk ch) = ownsTc c (oS (keepF c blk ch)) fullShare (a1 m ρ c blk ch) := by
    unfold sendPay; rw [rndOf_slotF, blkOf_slotF, chOf_slotF]; rfl
  have hw := @wp_wait2 F _ m ρ K c p1 p2.val hk
  rw [hp1, eS, eR] at hw
  have he := @wp_enq F _ m ρ K c p2
  rw [hp2, rndOf_slotF, blkOf_slotF, chOf_slotF, ptS_slotF, eS2] at he
  iintro ⟨#HI, #HM, #Hlev, HcS, HcR, HatS, HatR, HtS, HtR, Hgift, HO⟩ Hk
  iapply (hw rfl rfl W) $$ [HcS HcR HatS HatR HO]
  · iframe # ∗
  iintro %W' ⟨HpS, HpR, HzS, HzR, HO⟩
  ihave HpR' := (owns_squeeze_elim (c : Thread nD τ) (rS (slotF 1 blk ch)) squeezes_S1x32x512_S32x512 fullShare _) $$ HpR
  icases HpR' with ⟨%X, %hX, HpR⟩
  have hval : pay (a0 m ρ c blk ch) X = a1 m ρ c blk ch := by
    rw [hpay]
    have h1 : shapeCast S32x512 (a0 m ρ c blk ch) shapeCasts_S32x512_S32x512 = a0 m ρ c blk ch := by
      funext j; exact congrArg (a0 m ρ c blk ch) (Shape.reshapeEquiv_self _ j)
    have h2 : shapeCast S32x512 X shapeCasts_S1x32x512_S32x512 = a0 m ρ (pt c 1 blk) blk ch := hX
    rw [h1, h2]; unfold a1; rfl
  iapply (wp_load_slice 𝒱₀ (c : Thread nD τ) none (Γ := .empty) Set.univ oM
    (Rect.unit (s := S512x512) ![32 * keepCh c blk ch, 0] S32x512.size hino) (fun _ => rfl) fullShare (a0 m ρ c blk ch) hlo _) $$ [HpS]
  · iexact HpS
  iintro HpS
  iapply (wp_load_slice 𝒱₀ (c : Thread nD τ) none (Γ := .empty) Set.univ rM
    (Rect.unit (s := S24x32x512) ![slot 1 blk ch, 0, 0] S1x32x512.size hinr) (fun _ => rfl) fullShare X hlr _) $$ [HpR]
  · iexact HpR
  iintro HpR
  iapply (wp_load_slice 𝒱₀ (c : Thread nD τ) none (Γ := .empty) Set.univ oM
    (Rect.unit (s := S512x512) ![32 * keepCh c blk ch, 0] S32x512.size hino₂) (fun _ => rfl) fullShare (a0 m ρ c blk ch) hlo₂ _) $$ [HpS]
  · iexact HpS
  iintro HpS
  iapply (wp_store_slice 𝒱₀ (c : Thread nD τ) none (Γ := .empty) Set.univ oM
    (Rect.unit (s := S512x512) ![32 * keepCh c blk ch, 0] S32x512.size hino') (fun _ => rfl)
    (a0 m ρ c blk ch) (pay (a0 m ρ c blk ch) X) hst hmk _) $$ [HpS]
  · iexact HpS
  iintro HpS
  rw [hval]
  iapply (he rfl rfl rfl rfl rfl W') $$ [HtS HtR HpS Hgift HO]
  · iframe # ∗; iexact HpS
  iintro ⟨Hc, HO⟩
  iapply Hk $$ %W'
  iframe
  iexists X; iexact HpR

end Cert.KernelIdeal.Tree

end
-- ==== Proof.Step3.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.StepDefs
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.OwnsLib

local notation "𝕄" => MT nD τ sig Unit (Elt F) ℕ UU ℕ

variable (m : (ℓ : Loc nD τ sig) → Buf (Elt F) ℓ) (ρ : Dev nD → PrngReg)

/-- Round 2 ends: the partner's finished chunk is stored over the rows given away in round 0. -/
theorem step3 (K : Dev nD × Fin 49 → ℕ) (c : Dev nD) (blk : Fin 2) (ch : Fin 4) (p2 : Fin 24)
    (hp2 : posSlot p2 = slotF 2 blk ch) (h16 : 16 ≤ p2.val)
    {ss rs : DmaSem sig} (hss : ss = sendSem (slotF 2 blk ch)) (hrs : rs = recvSem (slotF 2 blk ch))
    {a₁ b₁ a₂ b₂ : Memref sig .tc .vmem S32x512 .f32}
    {ha₁ : a₁.view.WordExact} {hb₁ : b₁.view.WordExact} {ha₂ : a₂.view.WordExact} {hb₂ : b₂.view.WordExact}
    {offr : Fin 3 → ℕ} {hinr : ∀ a, offr a + S1x32x512.size a ≤ S24x32x512.size a} (hoffr : offr = ![slot 2 blk ch, 0, 0])
    {hlr : rM.view.LoadsAt (Rect.unit (s := S24x32x512) offr S1x32x512.size hinr).toLoadRect}
    {offo : Fin 2 → ℕ} {hino hino' : ∀ a, offo a + S32x512.size a ≤ S512x512.size a} (hoffo : offo = ![32 * sendCh c blk ch, 0])
    {hlo : oM.view.LoadsAt (Rect.unit (s := S512x512) offo S32x512.size hino).toLoadRect}
    {hst : (oM.access (Rect.unit (s := S512x512) offo S32x512.size hino')).Stores Finset.univ}
    {hmk : (Finset.univ : Finset (Rect.unit (s := S512x512) offo S32x512.size hino').shape.Idx) = Finset.univ ∨ ∀ a, (Rect.unit (s := S512x512) offo S32x512.size hino').stride a = 1}
    {pay : Vec F S1x32x512 .f32 → FVec F S32x512 .f32}
    (hpay : ∀ a, pay a = shapeCast S32x512 a shapeCasts_S1x32x512_S32x512)
    {α : Type} {Q : α → sProp 𝕄} {k : PUnit → Prog (TpuEff nD τ sig (Elt F) Λ₀ .tc) α} (W : Waits sig Unit) :
    iprop(invs m ρ K c ∗ marks c ∗ levAts L lv
        ∗ cred (tallyAt (sendCell c (slotF 2 blk ch)) () N) ∗ cred (tallyAt (recvCell c (slotF 2 blk ch)) () N)
        ∗ atPos ER (sendCell c (slotF 2 blk ch)) 0 ∅ 0 ∗ atPos ER (recvCell c (slotF 2 blk ch)) 0 ∅ 0
        ∗ (∃ V, ownsTc c (oS (sendF c blk ch)) fullShare V)
        ∗ owes (c : Thread nD τ) (Ot c 24) W)
      ⊢ iprop((∀ W', (ownsTc c (oS (keepF c blk ch)) fullShare (a1 m ρ c blk ch)
              ∗ ownsTc c (oS (sendF c blk ch)) fullShare (a1 m ρ (pt c 2 blk) blk ch)
              ∗ (∃ V, ownsTc c (rS (slotF 2 blk ch)) fullShare V)
              ∗ semVal (sendCell c (slotF 2 blk ch)) 0 ∗ semVal (recvCell c (slotF 2 blk ch)) 0
              ∗ owes (c : Thread nD τ) (Ot c 24) W') -∗ WP c (k ⟨⟩) Q)
          -∗ WP c (.op (.waitDma2 ss a₁ b₁ ha₁ hb₁) fun _ => .op (.waitDma2 rs a₂ b₂ ha₂ hb₂) fun _ =>
              .op (.load rM (Rect.unit (s := S24x32x512) offr S1x32x512.size hinr).toLoadRect hlr) fun vr =>
              .op (.load oM (Rect.unit (s := S512x512) offo S32x512.size hino).toLoadRect hlo) fun _ =>
              .op (.store oM (Rect.unit (s := S512x512) offo S32x512.size hino') (pay vr) Finset.univ hst hmk) k) Q) := by
  subst hss hrs hoffr hoffo
  have hk : 8 * (p2.val / 8 + 1) ≤ 24 := by have := p2.isLt; omega
  have eS : sendPay m ρ c (slotF 2 blk ch) = ownsTc c (oS (keepF c blk ch)) fullShare (a1 m ρ c blk ch) := by
    unfold sendPay; rw [rndOf_slotF, blkOf_slotF, chOf_slotF]; rfl
  have eR : recvPay m ρ c (slotF 2 blk ch)
      = ownsTc c (rQ (slotF 2 blk ch)) fullShare (a1 m ρ (pt c 2 blk) blk ch) := by
    unfold recvPay; rw [rndOf_slotF, blkOf_slotF, chOf_slotF]; rfl
  have hw := wp_wait2 m ρ K c p2 24 hk (ss := sendSem (slotF 2 blk ch)) (rs := recvSem (slotF 2 blk ch))
    (by rw [hp2]) (by rw [hp2]) (ha₁ := ha₁) (hb₁ := hb₁) (ha₂ := ha₂) (hb₂ := hb₂) (Q := Q)
    (k := fun _ => .op (.load rM (Rect.unit (s := S24x32x512) _ S1x32x512.size hinr).toLoadRect hlr) fun vr =>
              .op (.load oM (Rect.unit (s := S512x512) _ S32x512.size hino).toLoadRect hlo) fun _ =>
              .op (.store oM (Rect.unit (s := S512x512) _ S32x512.size hino') (pay vr) Finset.univ hst hmk) k) W
  rw [hp2, eS, eR] at hw
  iintro ⟨#HI, #HM, #Hlev, HcS, HcR, HatS, HatR, Ho, HO⟩ Hk
  iapply hw $$ [HcS HcR HatS HatR HO]
  · iframe # ∗
  iintro %W' ⟨HpS, HpR, HzS, HzR, HO⟩
  ihave HpR' := (owns_squeeze_elim (c : Thread nD τ) (rS (slotF 2 blk ch)) squeezes_S1x32x512_S32x512 fullShare
    (a1 m ρ (pt c 2 blk) blk ch)) $$ HpR
  icases HpR' with ⟨%Vr, %hVr, Hr⟩
  icases Ho with ⟨%V0, Ho⟩
  iapply (wp_load_slice 𝒱₀ (c : Thread nD τ) none (Γ := .empty) Set.univ rM
    (Rect.unit (s := S24x32x512) ![slot 2 blk ch, 0, 0] S1x32x512.size hinr) (fun _ => rfl) fullShare
    Vr hlr _) $$ [Hr]
  · iexact Hr
  iintro Hr
  iapply (wp_load_slice 𝒱₀ (c : Thread nD τ) none (Γ := .empty) Set.univ oM
    (Rect.unit (s := S512x512) ![32 * sendCh c blk ch, 0] S32x512.size hino) (fun _ => rfl) fullShare
    V0 hlo _) $$ [Ho]
  · iexact Ho
  iintro Ho
  iapply (wp_store_slice 𝒱₀ (c : Thread nD τ) none (Γ := .empty) Set.univ oM
    (Rect.unit (s := S512x512) ![32 * sendCh c blk ch, 0] S32x512.size hino') (fun _ => rfl)
    V0 (pay Vr) hst hmk _) $$ [Ho]
  · iexact Ho
  iintro Ho
  have hval : pay Vr = a1 m ρ (pt c 2 blk) blk ch := by
    rw [hpay]; exact hVr
  rw [hval]
  iapply Hk $$ %W'
  iframe
  isplitl [Ho]; · iexact Ho
  iexists Vr; iexact Hr

end Cert.KernelIdeal.Tree

end
-- ==== Proof.Glue.lean ====
import proofs.«900333_g7700000000000334_dist_treered_v7x_i4_m512_n512_f32_1_alg».proof.Proof.Out
import Idealize.ShloMosaic.Lib.Memref
import Idealize.ShloMosaic.Lib.Pipeline.Value

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev xR (j : Fin 16) : Rect S1x512x512 := Rect.unit (s := S1x512x512) ![0, 32 * j.val, 0] S1x32x512.size (xin j)
abbrev oR (j : Fin 16) : Rect S512x512 := Rect.unit (s := S512x512) ![32 * j.val, 0] S32x512.size (oin j)
abbrev rR (n : Fin 24) : Rect S24x32x512 := Rect.unit (s := S24x32x512) ![n.val, 0, 0] S1x32x512.size (rin n)

theorem xR_disjoint (j j' : Fin 16) (h : j ≠ j') : Disjoint (xR j).set (xR j').set := by
  have hv : j.val ≠ j'.val := fun e => h (Fin.ext e)
  refine Rect.unit_disjoint (1 : Fin 3) ?_
  show 32 * j.val + 32 ≤ 32 * j'.val ∨ 32 * j'.val + 32 ≤ 32 * j.val
  omega

theorem oR_disjoint (j j' : Fin 16) (h : j ≠ j') : Disjoint (oR j).set (oR j').set := by
  have hv : j.val ≠ j'.val := fun e => h (Fin.ext e)
  refine Rect.unit_disjoint (0 : Fin 2) ?_
  show 32 * j.val + 32 ≤ 32 * j'.val ∨ 32 * j'.val + 32 ≤ 32 * j.val
  omega

theorem rR_disjoint (n n' : Fin 24) (h : n ≠ n') : Disjoint (rR n).set (rR n').set := by
  have hv : n.val ≠ n'.val := fun e => h (Fin.ext e)
  refine Rect.unit_disjoint (0 : Fin 3) ?_
  show n.val + 1 ≤ n'.val ∨ n'.val + 1 ≤ n.val
  omega

theorem xR_cover : (Finset.univ : Finset (Fin 16)).biUnion (fun j => (xR j).set) = Finset.univ := by
  ext i
  simp only [Finset.mem_biUnion, Finset.mem_univ, true_and, iff_true]
  have h0 : (i 0).val < 1 := (i 0).isLt
  have h1 : (i 1).val < 512 := (i 1).isLt
  have h2 : (i 2).val < 512 := (i 2).isLt
  refine ⟨⟨(i 1).val / 32, by omega⟩, Rect.mem_set_unit.mpr fun a => ?_⟩
  fin_cases a
  · show 0 ≤ (i 0).val ∧ (i 0).val < 0 + 1
    omega
  · show 32 * ((i 1).val / 32) ≤ (i 1).val ∧ (i 1).val < 32 * ((i 1).val / 32) + 32
    omega
  · show 0 ≤ (i 2).val ∧ (i 2).val < 0 + 512
    omega

theorem oR_cover : (Finset.univ : Finset (Fin 16)).biUnion (fun j => (oR j).set) = Finset.univ := by
  ext i
  simp only [Finset.mem_biUnion, Finset.mem_univ, true_and, iff_true]
  have h0 : (i 0).val < 512 := (i 0).isLt
  have h1 : (i 1).val < 512 := (i 1).isLt
  refine ⟨⟨(i 0).val / 32, by omega⟩, Rect.mem_set_unit.mpr fun a => ?_⟩
  fin_cases a
  · show 32 * ((i 0).val / 32) ≤ (i 0).val ∧ (i 0).val < 32 * ((i 0).val / 32) + 32
    omega
  · show 0 ≤ (i 1).val ∧ (i 1).val < 0 + 512
    omega

theorem rR_cover : (Finset.univ : Finset (Fin 24)).biUnion (fun n => (rR n).set) = Finset.univ := by
  ext i
  simp only [Finset.mem_biUnion, Finset.mem_univ, true_and, iff_true]
  have h0 : (i 0).val < 24 := (i 0).isLt
  have h1 : (i 1).val < 32 := (i 1).isLt
  have h2 : (i 2).val < 512 := (i 2).isLt
  refine ⟨⟨(i 0).val, h0⟩, Rect.mem_set_unit.mpr fun a => ?_⟩
  fin_cases a
  · show (i 0).val ≤ (i 0).val ∧ (i 0).val < (i 0).val + 1
    omega
  · show 0 ≤ (i 1).val ∧ (i 1).val < 0 + 32
    omega
  · show 0 ≤ (i 2).val ∧ (i 2).val < 0 + 512
    omega

theorem x_split (c : Dev nD) (X : S1x512x512.Idx → Elt F .f32) :
    (ownsTc c xM fullShare X : sProp 𝕄)
      ⊢ bigSep Finset.univ fun j : Fin 16 => ownsTc c (xS j) fullShare ((xS j).view.read (Elt F) X) :=
  owns_rects (c : Thread nD τ) xM fullShare xR (fun _ _ => rfl) xR_disjoint xR_cover X

theorem x_join (c : Dev nD) (X : S1x512x512.Idx → Elt F .f32) :
    (bigSep Finset.univ fun j : Fin 16 => ownsTc c (xS j) fullShare ((xS j).view.read (Elt F) X))
      ⊢ (ownsTc c xM fullShare X : sProp 𝕄) :=
  owns_of_rects (c : Thread nD τ) xM fullShare xR (fun _ _ => rfl) xR_disjoint xR_cover X

theorem owns_some (c : Dev nD) {sh : Shape} (M : Memref sig .tc .vmem sh .f32) (V : sh.Idx → Elt F .f32) :
    (ownsTc c M fullShare V : sProp 𝕄) ⊢ iprop(∃ V, ownsTc c M fullShare V) := by
  iintro H; iexists V; iexact H

theorem o_split (c : Dev nD) (Y : S512x512.Idx → Elt F .f32) :
    (ownsTc c oM fullShare Y : sProp 𝕄)
      ⊢ bigSep Finset.univ fun j : Fin 16 => iprop(∃ V, ownsTc c (oS j) fullShare V) :=
  (owns_rects (c : Thread nD τ) oM fullShare oR (fun _ _ => rfl) oR_disjoint oR_cover Y).trans
    (bigSep_mono fun j _ => owns_some c (oS j) _)

theorem chunkVal_congr (m : (ℓ : Loc nD τ sig) → Buf (Elt F) ℓ) (ρ : Dev nD → PrngReg) (c : Dev nD)
    {j j' : Fin 16} {i i' : S32x512.Idx} (hj : j = j') (hi : i = i') :
    chunkVal m ρ c j i = chunkVal m ρ c j' i' := by subst hj hi; rfl

theorem outF_chunk (m : (ℓ : Loc nD τ sig) → Buf (Elt F) ℓ) (ρ : Dev nD → PrngReg) (c : Dev nD) (j : Fin 16)
    (i : S32x512.Idx) : outF m ρ c ((oR j).emb i) = chunkVal m ρ c j i := by
  have hi0 : (i 0).val < 32 := (i 0).isLt
  have h0 : ((oR j).emb i 0).val = 32 * j.val + 1 * (i 0).val := rfl
  have h1 : ((oR j).emb i 1).val = 0 + 1 * (i 1).val := rfl
  unfold outF
  refine chunkVal_congr m ρ c (Fin.ext ?_) (funext fun a => ?_)
  · show ((oR j).emb i 0).val / 32 = j.val
    rw [h0]; omega
  · match a with
    | ⟨0, _⟩ => exact Fin.ext (show ((oR j).emb i 0).val % 32 = (i 0).val by rw [h0]; omega)
    | ⟨1, _⟩ => exact Fin.ext (show ((oR j).emb i 1).val = (i 1).val by rw [h1]; omega)

theorem o_join (m : (ℓ : Loc nD τ sig) → Buf (Elt F) ℓ) (ρ : Dev nD → PrngReg) (c : Dev nD) :
    (bigSep Finset.univ fun j : Fin 16 => ownsTc c (oS j) fullShare (chunkVal m ρ c j))
      ⊢ (ownsTc c oM fullShare (outF m ρ c) : sProp 𝕄) := by
  have e : (bigSep Finset.univ fun j : Fin 16 => (ownsTc c (oS j) fullShare (chunkVal m ρ c j) : sProp 𝕄))
      = bigSep Finset.univ fun j : Fin 16 => owns (c : Thread nD τ) (oM.slice (oR j) (fun _ => rfl)) fullShare
          (fun i => outF m ρ c ((oR j).emb i)) :=
    bigSep_congr fun j _ => by
      have : (fun i => outF m ρ c ((oR j).emb i)) = chunkVal m ρ c j := funext fun i => outF_chunk m ρ c j i
      rw [this]
  rw [e]
  exact owns_of_rects (c : Thread nD τ) oM fullShare oR (fun _ _ => rfl) oR_disjoint oR_cover (outF m ρ c)

theorem r_split (c : Dev nD) (f : Buf (Elt F) ((c : Thread nD τ).loc cc0_scratch0)) :
    (((c : Thread nD τ).loc cc0_scratch0) ↦{fullShare} f : sProp 𝕄)
      ⊢ bigSep Finset.univ fun n : Fin 24 => iprop(∃ V, ownsTc c (rS n) fullShare V) := by
  rw [← owns_whole (c : Thread nD τ) cc0_scratch0 fullShare f]
  exact (owns_rects (c : Thread nD τ) rM fullShare rR (fun _ _ => rfl) rR_disjoint rR_cover _).trans
    (bigSep_mono fun n _ => owns_some c (rS n) _)

theorem r_join_at (c : Dev nD) (V : Fin 24 → S1x32x512.Idx → Elt F .f32) :
    (bigSep Finset.univ fun n : Fin 24 => (ownsTc c (rS n) fullShare (V n) : sProp 𝕄))
      ⊢ (((c : Thread nD τ).loc cc0_scratch0) ↦{fullShare} (Rect.glue rR rR_cover V) : sProp 𝕄) := by
  rw [← owns_whole (c : Thread nD τ) cc0_scratch0 fullShare (Rect.glue rR rR_cover V)]
  have e : (bigSep Finset.univ fun n : Fin 24 => (ownsTc c (rS n) fullShare (V n) : sProp 𝕄))
      = bigSep Finset.univ fun n : Fin 24 => owns (c : Thread nD τ) (rM.slice (rR n) (fun _ => rfl)) fullShare
          (fun i => Rect.glue rR rR_cover V ((rR n).emb i)) :=
    bigSep_congr fun n _ => by
      have : (fun i => Rect.glue rR rR_cover V ((rR n).emb i)) = V n :=
        funext fun i => Rect.glue_emb rR rR_cover rR_disjoint V n i
      rw [this]
  rw [e]
  exact owns_of_rects (c : Thread nD τ) rM fullShare rR (fun _ _ => rfl) rR_disjoint rR_cover (Rect.glue rR rR_cover V)

theorem r_join (c : Dev nD) :
    (bigSep Finset.univ fun n : Fin 24 => iprop(∃ V, ownsTc c (rS n) fullShare V))
      ⊢ iprop(∃ f, (((c : Thread nD τ).loc cc0_scratch0) ↦{fullShare} f : sProp 𝕄)) := by
  have hne : ∀ n : Fin 24, Nonempty (S1x32x512.Idx → Elt F .f32) :=
    fun _ => ⟨fun _ => Classical.choice (Elt.nonempty F .f32)⟩
  refine (@bigSep_exists_pi 𝕄 _ (Fin 24) _ (fun _ => S1x32x512.Idx → Elt F .f32) hne Finset.univ
    (fun n V => (ownsTc c (rS n) fullShare V : sProp 𝕄))).trans ?_
  iintro ⟨%V, H⟩
  iexists Rect.glue rR rR_cover V
  iapply (r_join_at c V)
  iexact H

def eIdx (c : Dev nD) (a : Bool × Fin 2 × Fin 4) : Fin 16 :=
  match a.1 with
  | true => keepF c a.2.1 a.2.2
  | false => sendF c a.2.1 a.2.2

theorem eIdx_bijective (c : Dev nD) : Function.Bijective (eIdx c) := by
  revert c; decide

theorem chunks_reindex (c : Dev nD) (Φ : Fin 16 → sProp 𝕄) :
    bigSep Finset.univ Φ
      = iprop((bigSep Finset.univ fun bc : Fin 2 × Fin 4 => Φ (keepF c bc.1 bc.2))
          ∗ (bigSep Finset.univ fun bc : Fin 2 × Fin 4 => Φ (sendF c bc.1 bc.2))) := by
  rw [bigSep_univ_equiv (Equiv.ofBijective (eIdx c) (eIdx_bijective c)) Φ, bigSep_univ_prod,
    show (Finset.univ : Finset Bool) = {true, false} from rfl, bigSep_insert (by decide), bigSep_singleton]
  rfl

end Cert.KernelIdeal.Tree

end
-- ==== Proof.Frame.lean ====
import proofs.«900333_g7700000000000334_dist_treered_v7x_i4_m512_n512_f32_1_alg».proof.Proof.Data
import proofs.«900333_g7700000000000334_dist_treered_v7x_i4_m512_n512_f32_1_alg».proof.Proof.Glue
import proofs.«900333_g7700000000000334_dist_treered_v7x_i4_m512_n512_f32_1_alg».proof.Proof.Prims
import proofs.«900333_g7700000000000334_dist_treered_v7x_i4_m512_n512_f32_1_alg».proof.Proof.LibOwns
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def lanesX (m : (ℓ : Loc nD τ sig) → Buf (Elt F) ℓ) (ρ : Dev nD → PrngReg) (c : Dev nD) : sProp 𝕄 :=
  bigSep Finset.univ fun bc : Fin 2 × Fin 4 =>
    iprop(ownsTc c (xS (keepF c bc.1 bc.2)) fullShare (xv m ρ c (keepF c bc.1 bc.2))
      ∗ ownsTc c (xQ (sendF c bc.1 bc.2)) fullShare (xq m ρ c (sendF c bc.1 bc.2)))

def lanesO (c : Dev nD) : sProp 𝕄 :=
  bigSep Finset.univ fun bc : Fin 2 × Fin 4 =>
    iprop((∃ V, ownsTc c (oS (keepF c bc.1 bc.2)) fullShare V) ∗ (∃ V, ownsTc c (oS (sendF c bc.1 bc.2)) fullShare V))

def lanesOut (m : (ℓ : Loc nD τ sig) → Buf (Elt F) ℓ) (ρ : Dev nD → PrngReg) (c : Dev nD) : sProp 𝕄 :=
  bigSep Finset.univ fun bc : Fin 2 × Fin 4 =>
    iprop(ownsTc c (oS (keepF c bc.1 bc.2)) fullShare (a1 m ρ c bc.1 bc.2)
      ∗ ownsTc c (oS (sendF c bc.1 bc.2)) fullShare (a1 m ρ (pt c 2 bc.1) bc.1 bc.2))

theorem bigSep_lanes (Φ : Fin 2 × Fin 4 → sProp 𝕄) :
    bigSep Finset.univ Φ
      = iprop(Φ (0, 0) ∗ Φ (1, 0) ∗ Φ (0, 1) ∗ Φ (1, 1) ∗ Φ (0, 2) ∗ Φ (1, 2) ∗ Φ (0, 3) ∗ Φ (1, 3)) :=
  bigSep_univ_eq_bigSepL
    [((0 : Fin 2), (0 : Fin 4)), (1, 0), (0, 1), (1, 1), (0, 2), (1, 2), (0, 3), (1, 3)] (by decide) (by decide) Φ

theorem fetch_x (t : Fin cfg0.N) : (cfg0.win 0).fetch t = true := by rw [fin_N t]; rfl

theorem stg_eq_owns (c : Dev nD) (b : Ref sig .tc) (X : b.ty.Contents (Elt F)) :
    (stg c b X : sProp 𝕄) = owns (c : Thread nD τ) (Memref.whole b) fullShare X :=
  (owns_whole_eq (c : Thread nD τ) b fullShare X).symm

theorem x_squeeze (m : (ℓ : Loc nD τ sig) → Buf (Elt F) ℓ) (ρ : Dev nD → PrngReg) (c : Dev nD) (j : Fin 16) :
    (ownsTc c (xS j) fullShare (xv m ρ c j) : sProp 𝕄) ⊢ ownsTc c (xQ j) fullShare (xq m ρ c j) :=
  OwnsLib.owns_squeeze_intro (Val := Elt F) (c : Thread nD τ) (xS j) squeezes_S1x32x512_S32x512 fullShare (xv m ρ c j)

theorem x_unsqueeze (m : (ℓ : Loc nD τ sig) → Buf (Elt F) ℓ) (ρ : Dev nD → PrngReg) (c : Dev nD) (j : Fin 16) :
    (ownsTc c (xQ j) fullShare (xq m ρ c j) : sProp 𝕄) ⊢ ownsTc c (xS j) fullShare (xv m ρ c j) := by
  have e : (fun i => xq m ρ c j ((Shape.reshapeEquiv squeezes_S1x32x512_S32x512.numel_eq).symm i)) = xv m ρ c j := by
    funext i
    show xv m ρ c j (Shape.reshapeEquiv squeezes_S1x32x512_S32x512.numel_eq
        ((Shape.reshapeEquiv squeezes_S1x32x512_S32x512.numel_eq).symm i)) = xv m ρ c j i
    rw [Equiv.apply_symm_apply]
  have h : (ownsTc c (xQ j) fullShare (xq m ρ c j) : sProp 𝕄)
      ⊢ ownsTc c (xS j) fullShare
          (fun i => xq m ρ c j ((Shape.reshapeEquiv squeezes_S1x32x512_S32x512.numel_eq).symm i)) :=
    OwnsLib.owns_squeeze_symm (Val := Elt F) (c : Thread nD τ) (xS j) squeezes_S1x32x512_S32x512 fullShare (xq m ρ c j)
  rw [e] at h
  exact h

theorem x_lanes (m : (ℓ : Loc nD τ sig) → Buf (Elt F) ℓ) (ρ : Dev nD → PrngReg) (c : Dev nD) :
    (ownsTc c xM fullShare (xstg m ρ c) : sProp 𝕄) ⊢ lanesX m ρ c := by
  refine (x_split c (xstg m ρ c)).trans ?_
  rw [chunks_reindex c]
  unfold lanesX
  rw [bigSep_sep']
  exact sep_mono_right (bigSep_mono fun bc _ => x_squeeze m ρ c (sendF c bc.1 bc.2))

theorem x_unlanes (m : (ℓ : Loc nD τ sig) → Buf (Elt F) ℓ) (ρ : Dev nD → PrngReg) (c : Dev nD) :
    (lanesX m ρ c : sProp 𝕄) ⊢ ownsTc c xM fullShare (xstg m ρ c) := by
  refine BIBase.Entails.trans ?_ (x_join c (xstg m ρ c))
  rw [chunks_reindex c]
  unfold lanesX
  rw [bigSep_sep']
  exact sep_mono_right (bigSep_mono fun bc _ => x_unsqueeze m ρ c (sendF c bc.1 bc.2))

theorem o_lanes (c : Dev nD) (Y : S512x512.Idx → Elt F .f32) :
    (ownsTc c oM fullShare Y : sProp 𝕄) ⊢ lanesO c := by
  refine (o_split c Y).trans ?_
  rw [chunks_reindex c]
  unfold lanesO
  rw [bigSep_sep']

theorem o_unlanes (m : (ℓ : Loc nD τ sig) → Buf (Elt F) ℓ) (ρ : Dev nD → PrngReg) (c : Dev nD) :
    (lanesOut m ρ c : sProp 𝕄) ⊢ ownsTc c oM fullShare (outF m ρ c) := by
  refine BIBase.Entails.trans ?_ (o_join m ρ c)
  rw [chunks_reindex c]
  unfold lanesOut
  rw [bigSep_sep']
  have hk : (fun bc : Fin 2 × Fin 4 => (ownsTc c (oS (keepF c bc.1 bc.2)) fullShare (a1 m ρ c bc.1 bc.2) : sProp 𝕄))
      = fun bc => ownsTc c (oS (keepF c bc.1 bc.2)) fullShare (chunkVal m ρ c (keepF c bc.1 bc.2)) := by
    funext bc; rw [chunkVal_keep]
  have hs : (fun bc : Fin 2 × Fin 4 =>
        (ownsTc c (oS (sendF c bc.1 bc.2)) fullShare (a1 m ρ (pt c 2 bc.1) bc.1 bc.2) : sProp 𝕄))
      = fun bc => ownsTc c (oS (sendF c bc.1 bc.2)) fullShare (chunkVal m ρ c (sendF c bc.1 bc.2)) := by
    funext bc; rw [chunkVal_send]
  rw [hk, hs]

theorem slot_squeeze (c : Dev nD) (n : Fin 24) :
    (iprop(∃ V, ownsTc c (rS n) fullShare V) : sProp 𝕄) ⊢ iprop(∃ W, ownsTc c (rQ n) fullShare W) := by
  iintro ⟨%V, H⟩
  iexists _
  iapply (OwnsLib.owns_squeeze_intro (Val := Elt F) (c : Thread nD τ) (rS n) squeezes_S1x32x512_S32x512 fullShare V)
  iexact H

theorem r_gifts (c : Dev nD) :
    (iprop(scrAny c ∗ marks c) : sProp 𝕄) ⊢ iprop(barPay (p1 c) false ∗ barPay (p2 c) true) := by
  refine BIBase.Entails.trans ?_ (gift_intro c)
  unfold scrAny marks slotGift
  rw [bigSep_sep', bigSep_sep']
  iintro ⟨⟨%f, Hscr⟩, -, -, -, #HrR⟩
  ihave Hsl := (r_split c f) $$ Hscr
  isplitl [Hsl]
  · have hs : (bigSep Finset.univ fun n : Fin 24 => (iprop(∃ V, ownsTc c (rS n) fullShare V) : sProp 𝕄))
        ⊢ bigSep Finset.univ fun n : Fin 24 => (iprop(∃ W, ownsTc c (rQ n) fullShare W) : sProp 𝕄) :=
      bigSep_mono fun n _ => slot_squeeze c n
    iapply hs; iexact Hsl
  · iexact HrR

theorem entry (m : (ℓ : Loc nD τ sig) → Buf (Elt F) ℓ) (ρ : Dev nD → PrngReg) (c : Dev nD) :
    (bodyPre' m ρ c : sProp 𝕄)
      ⊢ iprop(∃ K W, invs m ρ K c ∗ marks c ∗ linear c ∗ creds c ∗ levAts L lv ∗ lanesX m ρ c ∗ lanesO c
          ∗ barPay (p1 c) false ∗ barPay (p2 c) true ∗ owes (c : Thread nD τ) (O₀ c) W) := by
  unfold bodyPre' Φ₀ start ghost
  iintro ⟨⟨⟨⟨%K, #HI, #HM, HL⟩, Hcr, #Hlev⟩, Hscr⟩, Ho, ⟨%d0, Hx⟩, ⟨%d1, Hout⟩⟩
  have hx : (dats m ρ 0 c).before (0 : Fin 2) t₀ d0 = xstg m ρ c := by
    unfold Dat.before; rw [if_pos (fetch_x t₀)]; rfl
  rw [hx]
  unfold Dat.owesAt Pipeline.owesWithin
  icases Ho with ⟨%W, %hW, HO⟩
  rw [show (dats m ρ 0 c).owed t₀.castSucc = O₀ c from rfl]
  iexists K, W
  isplitr; · iexact HI
  isplitr; · iexact HM
  isplitl [HL]; · iexact HL
  isplitl [Hcr]; · iexact Hcr
  isplitr; · iexact Hlev
  isplitl [Hx]
  · iapply (x_lanes m ρ c)
    iapply (Entails.of_eq (stg_eq_owns c cc0_stg0_0 (xstg m ρ c)))
    iexact Hx
  isplitl [Hout]
  · iapply (o_lanes c ((dats m ρ 0 c).before (1 : Fin 2) t₀ d1))
    iapply (Entails.of_eq (stg_eq_owns c cc0_stg1_0 ((dats m ρ 0 c).before (1 : Fin 2) t₀ d1)))
    iexact Hout
  ihave Hg := (r_gifts c) $$ [Hscr]
  · iframe # ∗
  icases Hg with ⟨Hg1, Hg2⟩
  isplitl [Hg1]; · iexact Hg1
  isplitl [Hg2]; · iexact Hg2
  iexact HO

theorem exit (m : (ℓ : Loc nD τ sig) → Buf (Elt F) ℓ) (ρ : Dev nD → PrngReg) (c : Dev nD) (W : Waits sig Unit) :
    (iprop(lanesX m ρ c ∗ lanesOut m ρ c
        ∗ (bigSep Finset.univ fun n : Fin 24 => iprop(∃ V, ownsTc c (rS n) fullShare V))
        ∗ (bigSep Finset.univ fun n : Fin 24 => iprop(semVal (sendCell c n) 0 ∗ semVal (recvCell c n) 0))
        ∗ owes (c : Thread nD τ) (Ot c 24) W) : sProp 𝕄)
      ⊢ bodyPost m ρ c := by
  rw [Ot_done]
  unfold bodyPost Φ₁ scrAny
  iintro ⟨HX, HO', Hsl, Hz, HO⟩
  isplitl [Hsl Hz]
  · isplitl [Hsl]; · iapply (r_join c); iexact Hsl
    iexact Hz
  isplitl [HO]
  · unfold Dat.owesAt Pipeline.owesWithin
    rw [show (dats m ρ 0 c).owed t₀.succ = 0 from rfl]
    iexists W
    isplitr; · ipureintro; exact fun _ _ => Or.inl trivial
    iexact HO
  isplitl [HX]
  · iapply (Entails.of_eq (stg_eq_owns c cc0_stg0_0 (xstg m ρ c)).symm)
    iapply (x_unlanes m ρ c); iexact HX
  · iapply (Entails.of_eq (stg_eq_owns c cc0_stg1_0 (outF m ρ c)).symm)
    iapply (o_unlanes m ρ c); iexact HO'

end Cert.KernelIdeal.Tree

end
-- ==== Proof.Body.lean ====
import proofs.«900333_g7700000000000334_dist_treered_v7x_i4_m512_n512_f32_1_alg».proof.Proof.Mesh
import proofs.«900333_g7700000000000334_dist_treered_v7x_i4_m512_n512_f32_1_alg».proof.Proof.Gen.KernelIdeal.Skeleton
import proofs.«900333_g7700000000000334_dist_treered_v7x_i4_m512_n512_f32_1_alg».proof.Proof.Gen.KernelIdeal.Launch
import proofs.«900333_g7700000000000334_dist_treered_v7x_i4_m512_n512_f32_1_alg».proof.Proof.Gen.KernelIdeal.Points
import proofs.«900333_g7700000000000334_dist_treered_v7x_i4_m512_n512_f32_1_alg».proof.Proof.Data
import proofs.«900333_g7700000000000334_dist_treered_v7x_i4_m512_n512_f32_1_alg».proof.Proof.Prims
import proofs.«900333_g7700000000000334_dist_treered_v7x_i4_m512_n512_f32_1_alg».proof.Proof.MeshFacts
import proofs.«900333_g7700000000000334_dist_treered_v7x_i4_m512_n512_f32_1_alg».proof.Proof.StepDefs
import proofs.«900333_g7700000000000334_dist_treered_v7x_i4_m512_n512_f32_1_alg».proof.Proof.Step1
import proofs.«900333_g7700000000000334_dist_treered_v7x_i4_m512_n512_f32_1_alg».proof.Proof.Step2
import proofs.«900333_g7700000000000334_dist_treered_v7x_i4_m512_n512_f32_1_alg».proof.Proof.Step3
import proofs.«900333_g7700000000000334_dist_treered_v7x_i4_m512_n512_f32_1_alg».proof.Proof.Frame
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Idealize.ShloMosaic.OwnsLib

local notation "𝕄" => MT nD τ sig Unit (Elt F) ℕ UU ℕ

variable (m : (ℓ : Loc nD τ sig) → Buf (Elt F) ℓ) (ρ : Dev nD → PrngReg)

/-- A lane's first transfer: the chunk given away goes to the round-0 partner's slot. -/
theorem step0 (K : Dev nD × Fin 49 → ℕ) (c : Dev nD) (blk : Fin 2) (ch : Fin 4) (p0 : Fin 24)
    (hp0 : posSlot p0 = slotF 0 blk ch)
    {offx : Fin 3 → ℕ} {hinx : ∀ a, offx a + S1x32x512.size a ≤ S1x512x512.size a} (hoffx : offx = ![0, 32 * sendCh c blk ch, 0])
    {offr : Fin 3 → ℕ} {hinr : ∀ a, offr a + S1x32x512.size a ≤ S24x32x512.size a} (hoffr : offr = ![slot 0 blk ch, 0, 0])
    {dv : Dev nD} (hdv : dv = pt c 0 blk) {ss' rs' : DmaSem sig}
    (hss' : ss' = sendSem (slotF 0 blk ch)) (hrs' : rs' = recvSem (slotF 0 blk ch))
    {hsc : ((rM.slice (Rect.unit (s := S24x32x512) offr S1x32x512.size hinr) (fun _ => rfl)).squeeze S32x512 squeezes_S1x32x512_S32x512).view.ref.isScScratch = false}
    {hsrc : ((xM.slice (Rect.unit (s := S1x512x512) offx S1x32x512.size hinx) (fun _ => rfl)).squeeze S32x512 squeezes_S1x32x512_S32x512).view.WordExact}
    {hdst : ((rM.slice (Rect.unit (s := S24x32x512) offr S1x32x512.size hinr) (fun _ => rfl)).squeeze S32x512 squeezes_S1x32x512_S32x512).view.WordExact}
    {hsem : DmaTarget.Typed .vmem (.dma rs') (.remote (Dev.tc dv : Thread nD τ) ((rM.slice (Rect.unit (s := S24x32x512) offr S1x32x512.size hinr) (fun _ => rfl)).squeeze S32x512 squeezes_S1x32x512_S32x512) (.dma ss') hsc)}
    {α : Type} {Q : α → sProp 𝕄} {k : PUnit → Prog (TpuEff nD τ sig (Elt F) Λ₀ .tc) α} (W : Waits sig Unit) :
    iprop(invs m ρ K c ∗ marks c
        ∗ dutyTok ER (sendCell c (slotF 0 blk ch)) 0 false ∗ dutyTok ER (recvCell (pt c 0 blk) (slotF 0 blk ch)) 0 false
        ∗ ownsTc c (xQ (sendF c blk ch)) fullShare (xq m ρ c (sendF c blk ch))
        ∗ slotGift (pt c 0 blk) (slotF 0 blk ch) ∗ owes (c : Thread nD τ) (Ot c p0.val) W)
      ⊢ iprop(((cred (tallyAt (sendCell c (slotF 0 blk ch)) () N) ∗ owes (c : Thread nD τ) (Ot c (p0.val + 1)) W) -∗ WP c (k ⟨⟩) Q)
          -∗ WP c (.op (.enqueueDma ((xM.slice (Rect.unit (s := S1x512x512) offx S1x32x512.size hinx) (fun _ => rfl)).squeeze S32x512 squeezes_S1x32x512_S32x512)
                (.remote (Dev.tc dv : Thread nD τ) ((rM.slice (Rect.unit (s := S24x32x512) offr S1x32x512.size hinr) (fun _ => rfl)).squeeze S32x512 squeezes_S1x32x512_S32x512) (.dma ss') hsc)
                (.dma rs') hsrc hdst hsem) k) Q) := by
  subst hoffx hoffr hdv hss' hrs'
  have e1 : rndOf (posSlot p0) = 0 := by rw [hp0, rndOf_slotF]
  have e2 : blkOf (posSlot p0) = blk := by rw [hp0, blkOf_slotF]
  have e3 : chOf (posSlot p0) = ch := by rw [hp0, chOf_slotF]
  have e4 : ptS c (posSlot p0) = pt c 0 blk := by rw [hp0, ptS_slotF]
  have h := wp_enq (F := F) m ρ K c p0 (src := xQ (sendF c blk ch)) (dv := pt c 0 blk) (dst := rQ (slotF 0 blk ch))
    (ss := sendSem (slotF 0 blk ch)) (rs := recvSem (slotF 0 blk ch))
    (by rw [e1, e2, e3]; rfl) e4.symm (by rw [hp0]) (by rw [hp0]) (by rw [hp0])
    (hsc := hsc) (hsrc := hsrc) (hdst := hdst) (hsem := hsem) (Q := Q) (k := k) W
  rw [hp0, ptS_slotF] at h
  unfold sendPay at h
  rw [rndOf_slotF, blkOf_slotF, chOf_slotF] at h
  exact h

omit [FloatOps F] in
theorem rQ_of_off {off : Fin 3 → ℕ} {h : ∀ a, off a + S1x32x512.size a ≤ S24x32x512.size a} (n : Fin 24)
    (e : off = ![n.val, 0, 0]) :
    (rM.slice (Rect.unit (s := S24x32x512) off S1x32x512.size h) (fun _ => rfl)).squeeze S32x512 squeezes_S1x32x512_S32x512 = rQ n := by
  subst e; rfl

omit [FloatOps F] in
theorem bigSep_slotsF (Φ : Fin 24 → sProp 𝕄) :
    bigSep Finset.univ Φ = iprop(Φ (slotF 0 0 0) ∗ Φ (slotF 0 0 1) ∗ Φ (slotF 0 0 2) ∗ Φ (slotF 0 0 3) ∗ Φ (slotF 0 1 0) ∗ Φ (slotF 0 1 1) ∗ Φ (slotF 0 1 2) ∗ Φ (slotF 0 1 3) ∗ Φ (slotF 1 0 0) ∗ Φ (slotF 1 0 1) ∗ Φ (slotF 1 0 2) ∗ Φ (slotF 1 0 3) ∗ Φ (slotF 1 1 0) ∗ Φ (slotF 1 1 1) ∗ Φ (slotF 1 1 2) ∗ Φ (slotF 1 1 3) ∗ Φ (slotF 2 0 0) ∗ Φ (slotF 2 0 1) ∗ Φ (slotF 2 0 2) ∗ Φ (slotF 2 0 3) ∗ Φ (slotF 2 1 0) ∗ Φ (slotF 2 1 1) ∗ Φ (slotF 2 1 2) ∗ Φ (slotF 2 1 3)) :=
  bigSep_univ_eq_bigSepL [slotF 0 0 0, slotF 0 0 1, slotF 0 0 2, slotF 0 0 3, slotF 0 1 0, slotF 0 1 1, slotF 0 1 2, slotF 0 1 3, slotF 1 0 0, slotF 1 0 1, slotF 1 0 2, slotF 1 0 3, slotF 1 1 0, slotF 1 1 1, slotF 1 1 2, slotF 1 1 3, slotF 2 0 0, slotF 2 0 1, slotF 2 0 2, slotF 2 0 3, slotF 2 1 0, slotF 2 1 1, slotF 2 1 2, slotF 2 1 3] (by decide) (by decide) Φ

theorem gift_elimF (c : Dev nD) :
    (iprop(barPay c false ∗ barPay c true) : sProp 𝕄)
      ⊢ iprop(slotGift (pt c 0 0) (slotF 0 0 0)
          ∗ slotGift (pt c 0 0) (slotF 0 0 1)
          ∗ slotGift (pt c 0 0) (slotF 0 0 2)
          ∗ slotGift (pt c 0 0) (slotF 0 0 3)
          ∗ slotGift (pt c 0 1) (slotF 0 1 0)
          ∗ slotGift (pt c 0 1) (slotF 0 1 1)
          ∗ slotGift (pt c 0 1) (slotF 0 1 2)
          ∗ slotGift (pt c 0 1) (slotF 0 1 3)
          ∗ slotGift (pt c 1 0) (slotF 1 0 0)
          ∗ slotGift (pt c 1 0) (slotF 1 0 1)
          ∗ slotGift (pt c 1 0) (slotF 1 0 2)
          ∗ slotGift (pt c 1 0) (slotF 1 0 3)
          ∗ slotGift (pt c 1 1) (slotF 1 1 0)
          ∗ slotGift (pt c 1 1) (slotF 1 1 1)
          ∗ slotGift (pt c 1 1) (slotF 1 1 2)
          ∗ slotGift (pt c 1 1) (slotF 1 1 3)
          ∗ slotGift (pt c 2 0) (slotF 2 0 0)
          ∗ slotGift (pt c 2 0) (slotF 2 0 1)
          ∗ slotGift (pt c 2 0) (slotF 2 0 2)
          ∗ slotGift (pt c 2 0) (slotF 2 0 3)
          ∗ slotGift (pt c 2 1) (slotF 2 1 0)
          ∗ slotGift (pt c 2 1) (slotF 2 1 1)
          ∗ slotGift (pt c 2 1) (slotF 2 1 2)
          ∗ slotGift (pt c 2 1) (slotF 2 1 3)) := by
  refine (gift_elim (F := F) c).trans ?_
  rw [bigSep_slotsF]
  simp only [ptS_slotF]
  exact .rfl

set_option maxHeartbeats 16000000 in
set_option maxRecDepth 65536 in
/-- One device's thread: the handshake, the eight first transfers, then round by round and lane by lane the three exchanges. -/
theorem sound_body (c : Dev nD) :
    bodyPre' m ρ c ⊢ wp frame (wpE (defs₀ (F := F)) 𝒱₀ (c : Thread nD τ) none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c) := by
  simp only [cc0_body_eq_skeleton]; unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel
  simp only [semSignalWord, semWaitWord, Prog.lift, Prog.bind_op, Prog.bind_ret, Prog.pure_eq_ret, wp_deviceId]
  have hen := entry (F := F) m ρ c
  unfold linear creds lanesX lanesO slotToks at hen
  rw [bigSep_slotsF, bigSep_slotsF, bigSep_lanes, bigSep_lanes] at hen
  simp only [ptS_slotF] at hen
  have hex := fun W => exit (F := F) m ρ c W
  unfold lanesX lanesOut at hex
  simp only [bigSep_lanes, bigSep_slotsF] at hex
  iintro Hpre
  ihave Hen := hen $$ Hpre
  icases Hen with ⟨%K, %W, #HI, #HM, ⟨HaB, HtB1, HtB2, ⟨Ta0, Tb0, Ts0, Tr0⟩, ⟨Ta1, Tb1, Ts1, Tr1⟩, ⟨Ta2, Tb2, Ts2, Tr2⟩, ⟨Ta3, Tb3, Ts3, Tr3⟩, ⟨Ta4, Tb4, Ts4, Tr4⟩, ⟨Ta5, Tb5, Ts5, Tr5⟩, ⟨Ta6, Tb6, Ts6, Tr6⟩, ⟨Ta7, Tb7, Ts7, Tr7⟩, ⟨Ta8, Tb8, Ts8, Tr8⟩, ⟨Ta9, Tb9, Ts9, Tr9⟩, ⟨Ta10, Tb10, Ts10, Tr10⟩, ⟨Ta11, Tb11, Ts11, Tr11⟩, ⟨Ta12, Tb12, Ts12, Tr12⟩, ⟨Ta13, Tb13, Ts13, Tr13⟩, ⟨Ta14, Tb14, Ts14, Tr14⟩, ⟨Ta15, Tb15, Ts15, Tr15⟩, ⟨Ta16, Tb16, Ts16, Tr16⟩, ⟨Ta17, Tb17, Ts17, Tr17⟩, ⟨Ta18, Tb18, Ts18, Tr18⟩, ⟨Ta19, Tb19, Ts19, Tr19⟩, ⟨Ta20, Tb20, Ts20, Tr20⟩, ⟨Ta21, Tb21, Ts21, Tr21⟩, ⟨Ta22, Tb22, Ts22, Tr22⟩, ⟨Ta23, Tb23, Ts23, Tr23⟩⟩, ⟨HcB, Cr0, Cr1, Cr2, Cr3, Cr4, Cr5, Cr6, Cr7, Cr8, Cr9, Cr10, Cr11, Cr12, Cr13, Cr14, Cr15, Cr16, Cr17, Cr18, Cr19, Cr20, Cr21, Cr22, Cr23⟩, #Hlev, ⟨⟨Xk0, Xs0⟩, ⟨Xk1, Xs1⟩, ⟨Xk2, Xs2⟩, ⟨Xk3, Xs3⟩, ⟨Xk4, Xs4⟩, ⟨Xk5, Xs5⟩, ⟨Xk6, Xs6⟩, ⟨Xk7, Xs7⟩⟩, ⟨⟨Ok0, Os0⟩, ⟨Ok1, Os1⟩, ⟨Ok2, Os2⟩, ⟨Ok3, Os3⟩, ⟨Ok4, Os4⟩, ⟨Ok5, Os5⟩, ⟨Ok6, Os6⟩, ⟨Ok7, Os7⟩⟩, Hb1, Hb2, HO⟩
  iapply (wp_sig1 m ρ K c (dev1_eq c) (by decide) _) $$ [HO HtB1 Hb1]
  · iframe # ∗
  iintro HO
  iapply (wp_sig2 m ρ K c (dev2_eq c) (by decide) _) $$ [HO HtB2 Hb2]
  · iframe # ∗
  iintro HO
  iapply (wp_barwait m ρ K c (by decide) _) $$ [HcB HO HaB]
  · iframe # ∗
  iintro ⟨HO, Hg1, Hg2⟩
  ihave Hg := (gift_elimF (F := F) c) $$ [Hg1 Hg2]
  · iframe # ∗
  icases Hg with ⟨G0, G1, G2, G3, G4, G5, G6, G7, G8, G9, G10, G11, G12, G13, G14, G15, G16, G17, G18, G19, G20, G21, G22, G23⟩
  iapply (step0 m ρ K c 0 0 ⟨0, by decide⟩ (by decide) (off1_eq c 0) rfl (dev3_eq_pt c)
      (sendSem_eq _) (recvSem_eq _) _) $$ [Ts0 Tr0 Xs0 G0 HO]
  · iframe # ∗
  iintro ⟨Cs0, HO⟩
  iapply (step0 m ρ K c 1 0 ⟨1, by decide⟩ (by decide) (off2_eq c 0) rfl (dev4_eq_pt c)
      (sendSem_eq _) (recvSem_eq _) _) $$ [Ts4 Tr4 Xs1 G4 HO]
  · iframe # ∗
  iintro ⟨Cs4, HO⟩
  iapply (step0 m ρ K c 0 1 ⟨2, by decide⟩ (by decide) (off1_eq c 1) rfl (dev5_eq_pt c)
      (sendSem_eq _) (recvSem_eq _) _) $$ [Ts1 Tr1 Xs2 G1 HO]
  · iframe # ∗
  iintro ⟨Cs1, HO⟩
  iapply (step0 m ρ K c 1 1 ⟨3, by decide⟩ (by decide) (off2_eq c 1) rfl (dev6_eq_pt c)
      (sendSem_eq _) (recvSem_eq _) _) $$ [Ts5 Tr5 Xs3 G5 HO]
  · iframe # ∗
  iintro ⟨Cs5, HO⟩
  iapply (step0 m ρ K c 0 2 ⟨4, by decide⟩ (by decide) (off1_eq c 2) rfl (dev7_eq_pt c)
      (sendSem_eq _) (recvSem_eq _) _) $$ [Ts2 Tr2 Xs4 G2 HO]
  · iframe # ∗
  iintro ⟨Cs2, HO⟩
  iapply (step0 m ρ K c 1 2 ⟨5, by decide⟩ (by decide) (off2_eq c 2) rfl (dev8_eq_pt c)
      (sendSem_eq _) (recvSem_eq _) _) $$ [Ts6 Tr6 Xs5 G6 HO]
  · iframe # ∗
  iintro ⟨Cs6, HO⟩
  iapply (step0 m ρ K c 0 3 ⟨6, by decide⟩ (by decide) (off1_eq c 3) rfl (dev9_eq_pt c)
      (sendSem_eq _) (recvSem_eq _) _) $$ [Ts3 Tr3 Xs6 G3 HO]
  · iframe # ∗
  iintro ⟨Cs3, HO⟩
  iapply (step0 m ρ K c 1 3 ⟨7, by decide⟩ (by decide) (off2_eq c 3) rfl (dev10_eq_pt c)
      (sendSem_eq _) (recvSem_eq _) _) $$ [Ts7 Tr7 Xs7 G7 HO]
  · iframe # ∗
  iintro ⟨Cs7, HO⟩
  iapply (step1 m ρ K c 0 0 ⟨0, by decide⟩ ⟨8, by decide⟩ (by decide) (by decide) (by decide) (by decide)
      (hss := sendSem_eq _) (hrs := recvSem_eq _)
      (hoffx := off3_eq c 0) (hoffr := rfl) (hoffo := off4_eq c 0)
      (pay := k0_pay2) (hpay := fun _ _ => rfl)
      (hsrcE := oS_of_off (keepF c 0 0) (off5_eq c 0)) (hdv := dev11_eq_pt c)
      (hdstE := rQ_of_off (slotF 1 0 0) rfl)
      (hss' := sendSem_eq _) (hrs' := recvSem_eq _) _) $$ [Cs0 Cr0 Ta0 Tb0 Xk0 Ok0 Ts8 Tr8 G8 HO]
  · iframe # ∗
  iintro %W1_0 ⟨Xs0, R0, Za0, Zb0, Xk0, Cs8, HO⟩
  iapply (step1 m ρ K c 1 0 ⟨1, by decide⟩ ⟨9, by decide⟩ (by decide) (by decide) (by decide) (by decide)
      (hss := sendSem_eq _) (hrs := recvSem_eq _)
      (hoffx := off6_eq c 0) (hoffr := rfl) (hoffo := off7_eq c 0)
      (pay := k0_pay3) (hpay := fun _ _ => rfl)
      (hsrcE := oS_of_off (keepF c 1 0) (off8_eq c 0)) (hdv := dev12_eq_pt c)
      (hdstE := rQ_of_off (slotF 1 1 0) rfl)
      (hss' := sendSem_eq _) (hrs' := recvSem_eq _) _) $$ [Cs4 Cr4 Ta4 Tb4 Xk1 Ok1 Ts12 Tr12 G12 HO]
  · iframe # ∗
  iintro %W1_1 ⟨Xs1, R4, Za4, Zb4, Xk1, Cs12, HO⟩
  iapply (step1 m ρ K c 0 1 ⟨2, by decide⟩ ⟨10, by decide⟩ (by decide) (by decide) (by decide) (by decide)
      (hss := sendSem_eq _) (hrs := recvSem_eq _)
      (hoffx := off3_eq c 1) (hoffr := rfl) (hoffo := off4_eq c 1)
      (pay := k0_pay4) (hpay := fun _ _ => rfl)
      (hsrcE := oS_of_off (keepF c 0 1) (off5_eq c 1)) (hdv := dev13_eq_pt c)
      (hdstE := rQ_of_off (slotF 1 0 1) rfl)
      (hss' := sendSem_eq _) (hrs' := recvSem_eq _) _) $$ [Cs1 Cr1 Ta1 Tb1 Xk2 Ok2 Ts9 Tr9 G9 HO]
  · iframe # ∗
  iintro %W1_2 ⟨Xs2, R1, Za1, Zb1, Xk2, Cs9, HO⟩
  iapply (step1 m ρ K c 1 1 ⟨3, by decide⟩ ⟨11, by decide⟩ (by decide) (by decide) (by decide) (by decide)
      (hss := sendSem_eq _) (hrs := recvSem_eq _)
      (hoffx := off6_eq c 1) (hoffr := rfl) (hoffo := off7_eq c 1)
      (pay := k0_pay5) (hpay := fun _ _ => rfl)
      (hsrcE := oS_of_off (keepF c 1 1) (off8_eq c 1)) (hdv := dev14_eq_pt c)
      (hdstE := rQ_of_off (slotF 1 1 1) rfl)
      (hss' := sendSem_eq _) (hrs' := recvSem_eq _) _) $$ [Cs5 Cr5 Ta5 Tb5 Xk3 Ok3 Ts13 Tr13 G13 HO]
  · iframe # ∗
  iintro %W1_3 ⟨Xs3, R5, Za5, Zb5, Xk3, Cs13, HO⟩
  iapply (step1 m ρ K c 0 2 ⟨4, by decide⟩ ⟨12, by decide⟩ (by decide) (by decide) (by decide) (by decide)
      (hss := sendSem_eq _) (hrs := recvSem_eq _)
      (hoffx := off3_eq c 2) (hoffr := rfl) (hoffo := off4_eq c 2)
      (pay := (fun a b => k0_pay8 (k0_pay6 a) (k0_pay7 b))) (hpay := fun _ _ => rfl)
      (hsrcE := oS_of_off (keepF c 0 2) (off5_eq c 2)) (hdv := dev15_eq_pt c)
      (hdstE := rQ_of_off (slotF 1 0 2) rfl)
      (hss' := sendSem_eq _) (hrs' := recvSem_eq _) _) $$ [Cs2 Cr2 Ta2 Tb2 Xk4 Ok4 Ts10 Tr10 G10 HO]
  · iframe # ∗
  iintro %W1_4 ⟨Xs4, R2, Za2, Zb2, Xk4, Cs10, HO⟩
  iapply (step1 m ρ K c 1 2 ⟨5, by decide⟩ ⟨13, by decide⟩ (by decide) (by decide) (by decide) (by decide)
      (hss := sendSem_eq _) (hrs := recvSem_eq _)
      (hoffx := off6_eq c 2) (hoffr := rfl) (hoffo := off7_eq c 2)
      (pay := k0_pay9) (hpay := fun _ _ => rfl)
      (hsrcE := oS_of_off (keepF c 1 2) (off8_eq c 2)) (hdv := dev16_eq_pt c)
      (hdstE := rQ_of_off (slotF 1 1 2) rfl)
      (hss' := sendSem_eq _) (hrs' := recvSem_eq _) _) $$ [Cs6 Cr6 Ta6 Tb6 Xk5 Ok5 Ts14 Tr14 G14 HO]
  · iframe # ∗
  iintro %W1_5 ⟨Xs5, R6, Za6, Zb6, Xk5, Cs14, HO⟩
  iapply (step1 m ρ K c 0 3 ⟨6, by decide⟩ ⟨14, by decide⟩ (by decide) (by decide) (by decide) (by decide)
      (hss := sendSem_eq _) (hrs := recvSem_eq _)
      (hoffx := off3_eq c 3) (hoffr := rfl) (hoffo := off4_eq c 3)
      (pay := k0_pay10) (hpay := fun _ _ => rfl)
      (hsrcE := oS_of_off (keepF c 0 3) (off5_eq c 3)) (hdv := dev17_eq_pt c)
      (hdstE := rQ_of_off (slotF 1 0 3) rfl)
      (hss' := sendSem_eq _) (hrs' := recvSem_eq _) _) $$ [Cs3 Cr3 Ta3 Tb3 Xk6 Ok6 Ts11 Tr11 G11 HO]
  · iframe # ∗
  iintro %W1_6 ⟨Xs6, R3, Za3, Zb3, Xk6, Cs11, HO⟩
  iapply (step1 m ρ K c 1 3 ⟨7, by decide⟩ ⟨15, by decide⟩ (by decide) (by decide) (by decide) (by decide)
      (hss := sendSem_eq _) (hrs := recvSem_eq _)
      (hoffx := off6_eq c 3) (hoffr := rfl) (hoffo := off7_eq c 3)
      (pay := k0_pay11) (hpay := fun _ _ => rfl)
      (hsrcE := oS_of_off (keepF c 1 3) (off8_eq c 3)) (hdv := dev18_eq_pt c)
      (hdstE := rQ_of_off (slotF 1 1 3) rfl)
      (hss' := sendSem_eq _) (hrs' := recvSem_eq _) _) $$ [Cs7 Cr7 Ta7 Tb7 Xk7 Ok7 Ts15 Tr15 G15 HO]
  · iframe # ∗
  iintro %W1_7 ⟨Xs7, R7, Za7, Zb7, Xk7, Cs15, HO⟩
  iapply (step2 m ρ K c 0 0 ⟨8, by decide⟩ ⟨16, by decide⟩ (by decide) (by decide) (by decide) (by decide)
      (hss := sendSem_eq _) (hrs := recvSem_eq _)
      (hoffo := off4_eq c 0) (hoffr := rfl)
      (pay := k0_pay12) (hpay := fun _ _ => rfl)
      (hsrcE := oS_of_off (keepF c 0 0) (off5_eq c 0)) (hdv := dev19_eq_pt c)
      (hdstE := rQ_of_off (slotF 2 0 0) rfl)
      (hss' := sendSem_eq _) (hrs' := recvSem_eq _) _) $$ [Cs8 Cr8 Ta8 Tb8 Ts16 Tr16 G16 HO]
  · iframe # ∗
  iintro %W2_0 ⟨R8, Za8, Zb8, Cs16, HO⟩
  iapply (step2 m ρ K c 1 0 ⟨9, by decide⟩ ⟨17, by decide⟩ (by decide) (by decide) (by decide) (by decide)
      (hss := sendSem_eq _) (hrs := recvSem_eq _)
      (hoffo := off7_eq c 0) (hoffr := rfl)
      (pay := k0_pay13) (hpay := fun _ _ => rfl)
      (hsrcE := oS_of_off (keepF c 1 0) (off8_eq c 0)) (hdv := dev20_eq_pt c)
      (hdstE := rQ_of_off (slotF 2 1 0) rfl)
      (hss' := sendSem_eq _) (hrs' := recvSem_eq _) _) $$ [Cs12 Cr12 Ta12 Tb12 Ts20 Tr20 G20 HO]
  · iframe # ∗
  iintro %W2_1 ⟨R12, Za12, Zb12, Cs20, HO⟩
  iapply (step2 m ρ K c 0 1 ⟨10, by decide⟩ ⟨18, by decide⟩ (by decide) (by decide) (by decide) (by decide)
      (hss := sendSem_eq _) (hrs := recvSem_eq _)
      (hoffo := off4_eq c 1) (hoffr := rfl)
      (pay := k0_pay14) (hpay := fun _ _ => rfl)
      (hsrcE := oS_of_off (keepF c 0 1) (off5_eq c 1)) (hdv := dev21_eq_pt c)
      (hdstE := rQ_of_off (slotF 2 0 1) rfl)
      (hss' := sendSem_eq _) (hrs' := recvSem_eq _) _) $$ [Cs9 Cr9 Ta9 Tb9 Ts17 Tr17 G17 HO]
  · iframe # ∗
  iintro %W2_2 ⟨R9, Za9, Zb9, Cs17, HO⟩
  iapply (step2 m ρ K c 1 1 ⟨11, by decide⟩ ⟨19, by decide⟩ (by decide) (by decide) (by decide) (by decide)
      (hss := sendSem_eq _) (hrs := recvSem_eq _)
      (hoffo := off7_eq c 1) (hoffr := rfl)
      (pay := k0_pay15) (hpay := fun _ _ => rfl)
      (hsrcE := oS_of_off (keepF c 1 1) (off8_eq c 1)) (hdv := dev22_eq_pt c)
      (hdstE := rQ_of_off (slotF 2 1 1) rfl)
      (hss' := sendSem_eq _) (hrs' := recvSem_eq _) _) $$ [Cs13 Cr13 Ta13 Tb13 Ts21 Tr21 G21 HO]
  · iframe # ∗
  iintro %W2_3 ⟨R13, Za13, Zb13, Cs21, HO⟩
  iapply (step2 m ρ K c 0 2 ⟨12, by decide⟩ ⟨20, by decide⟩ (by decide) (by decide) (by decide) (by decide)
      (hss := sendSem_eq _) (hrs := recvSem_eq _)
      (hoffo := off4_eq c 2) (hoffr := rfl)
      (pay := k0_pay16) (hpay := fun _ _ => rfl)
      (hsrcE := oS_of_off (keepF c 0 2) (off5_eq c 2)) (hdv := dev23_eq_pt c)
      (hdstE := rQ_of_off (slotF 2 0 2) rfl)
      (hss' := sendSem_eq _) (hrs' := recvSem_eq _) _) $$ [Cs10 Cr10 Ta10 Tb10 Ts18 Tr18 G18 HO]
  · iframe # ∗
  iintro %W2_4 ⟨R10, Za10, Zb10, Cs18, HO⟩
  iapply (step2 m ρ K c 1 2 ⟨13, by decide⟩ ⟨21, by decide⟩ (by decide) (by decide) (by decide) (by decide)
      (hss := sendSem_eq _) (hrs := recvSem_eq _)
      (hoffo := off7_eq c 2) (hoffr := rfl)
      (pay := k0_pay17) (hpay := fun _ _ => rfl)
      (hsrcE := oS_of_off (keepF c 1 2) (off8_eq c 2)) (hdv := dev24_eq_pt c)
      (hdstE := rQ_of_off (slotF 2 1 2) rfl)
      (hss' := sendSem_eq _) (hrs' := recvSem_eq _) _) $$ [Cs14 Cr14 Ta14 Tb14 Ts22 Tr22 G22 HO]
  · iframe # ∗
  iintro %W2_5 ⟨R14, Za14, Zb14, Cs22, HO⟩
  iapply (step2 m ρ K c 0 3 ⟨14, by decide⟩ ⟨22, by decide⟩ (by decide) (by decide) (by decide) (by decide)
      (hss := sendSem_eq _) (hrs := recvSem_eq _)
      (hoffo := off4_eq c 3) (hoffr := rfl)
      (pay := k0_pay18) (hpay := fun _ _ => rfl)
      (hsrcE := oS_of_off (keepF c 0 3) (off5_eq c 3)) (hdv := dev25_eq_pt c)
      (hdstE := rQ_of_off (slotF 2 0 3) rfl)
      (hss' := sendSem_eq _) (hrs' := recvSem_eq _) _) $$ [Cs11 Cr11 Ta11 Tb11 Ts19 Tr19 G19 HO]
  · iframe # ∗
  iintro %W2_6 ⟨R11, Za11, Zb11, Cs19, HO⟩
  iapply (step2 m ρ K c 1 3 ⟨15, by decide⟩ ⟨23, by decide⟩ (by decide) (by decide) (by decide) (by decide)
      (hss := sendSem_eq _) (hrs := recvSem_eq _)
      (hoffo := off7_eq c 3) (hoffr := rfl)
      (pay := k0_pay19) (hpay := fun _ _ => rfl)
      (hsrcE := oS_of_off (keepF c 1 3) (off8_eq c 3)) (hdv := dev26_eq_pt c)
      (hdstE := rQ_of_off (slotF 2 1 3) rfl)
      (hss' := sendSem_eq _) (hrs' := recvSem_eq _) _) $$ [Cs15 Cr15 Ta15 Tb15 Ts23 Tr23 G23 HO]
  · iframe # ∗
  iintro %W2_7 ⟨R15, Za15, Zb15, Cs23, HO⟩
  iapply (step3 m ρ K c 0 0 ⟨16, by decide⟩ (by decide) (by decide)
      (hss := sendSem_eq _) (hrs := recvSem_eq _)
      (hoffr := rfl) (hoffo := off9_eq c 0)
      (pay := k0_pay20) (hpay := fun _ => rfl) _) $$ [Cs16 Cr16 Ta16 Tb16 Os0 HO]
  · iframe # ∗
  iintro %W3_0 ⟨Fk0, Fs0, R16, Za16, Zb16, HO⟩
  iapply (step3 m ρ K c 1 0 ⟨17, by decide⟩ (by decide) (by decide)
      (hss := sendSem_eq _) (hrs := recvSem_eq _)
      (hoffr := rfl) (hoffo := off10_eq c 0)
      (pay := k0_pay21) (hpay := fun _ => rfl) _) $$ [Cs20 Cr20 Ta20 Tb20 Os1 HO]
  · iframe # ∗
  iintro %W3_1 ⟨Fk1, Fs1, R20, Za20, Zb20, HO⟩
  iapply (step3 m ρ K c 0 1 ⟨18, by decide⟩ (by decide) (by decide)
      (hss := sendSem_eq _) (hrs := recvSem_eq _)
      (hoffr := rfl) (hoffo := off9_eq c 1)
      (pay := k0_pay22) (hpay := fun _ => rfl) _) $$ [Cs17 Cr17 Ta17 Tb17 Os2 HO]
  · iframe # ∗
  iintro %W3_2 ⟨Fk2, Fs2, R17, Za17, Zb17, HO⟩
  iapply (step3 m ρ K c 1 1 ⟨19, by decide⟩ (by decide) (by decide)
      (hss := sendSem_eq _) (hrs := recvSem_eq _)
      (hoffr := rfl) (hoffo := off10_eq c 1)
      (pay := k0_pay23) (hpay := fun _ => rfl) _) $$ [Cs21 Cr21 Ta21 Tb21 Os3 HO]
  · iframe # ∗
  iintro %W3_3 ⟨Fk3, Fs3, R21, Za21, Zb21, HO⟩
  iapply (step3 m ρ K c 0 2 ⟨20, by decide⟩ (by decide) (by decide)
      (hss := sendSem_eq _) (hrs := recvSem_eq _)
      (hoffr := rfl) (hoffo := off9_eq c 2)
      (pay := k0_pay24) (hpay := fun _ => rfl) _) $$ [Cs18 Cr18 Ta18 Tb18 Os4 HO]
  · iframe # ∗
  iintro %W3_4 ⟨Fk4, Fs4, R18, Za18, Zb18, HO⟩
  iapply (step3 m ρ K c 1 2 ⟨21, by decide⟩ (by decide) (by decide)
      (hss := sendSem_eq _) (hrs := recvSem_eq _)
      (hoffr := rfl) (hoffo := off10_eq c 2)
      (pay := k0_pay25) (hpay := fun _ => rfl) _) $$ [Cs22 Cr22 Ta22 Tb22 Os5 HO]
  · iframe # ∗
  iintro %W3_5 ⟨Fk5, Fs5, R22, Za22, Zb22, HO⟩
  iapply (step3 m ρ K c 0 3 ⟨22, by decide⟩ (by decide) (by decide)
      (hss := sendSem_eq _) (hrs := recvSem_eq _)
      (hoffr := rfl) (hoffo := off9_eq c 3)
      (pay := k0_pay26) (hpay := fun _ => rfl) _) $$ [Cs19 Cr19 Ta19 Tb19 Os6 HO]
  · iframe # ∗
  iintro %W3_6 ⟨Fk6, Fs6, R19, Za19, Zb19, HO⟩
  iapply (step3 m ρ K c 1 3 ⟨23, by decide⟩ (by decide) (by decide)
      (hss := sendSem_eq _) (hrs := recvSem_eq _)
      (hoffr := rfl) (hoffo := off10_eq c 3)
      (pay := k0_pay1) (hpay := fun _ => rfl) _) $$ [Cs23 Cr23 Ta23 Tb23 Os7 HO]
  · iframe # ∗
  iintro %W3_7 ⟨Fk7, Fs7, R23, Za23, Zb23, HO⟩
  unfold WP
  rw [wp_ret]; imodintro
  iapply (hex _)
  iframe

end Cert.KernelIdeal.Tree

end
-- ==== Proof.LaunchCred.lean ====
import proofs.«900333_g7700000000000334_dist_treered_v7x_i4_m512_n512_f32_1_alg».proof.Proof.Body
import proofs.«900333_g7700000000000334_dist_treered_v7x_i4_m512_n512_f32_1_alg».proof.Proof.SchedFacts
import proofs.«900333_g7700000000000334_dist_treered_v7x_i4_m512_n512_f32_1_alg».proof.Proof.LaunchRes
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem ownSemFacts : Pipeline.OwnSemFacts cfg0.spec osem := by decide +kernel

theorem share_eq (m : (ℓ : Loc nD τ sig) → Buf (Elt F) ℓ) (ρ : Dev nD → PrngReg) (c : Dev nD) (w : Fin cfg0.W) :
    (dats m ρ 0 c).share w = fullShare := by unfold Dat.share; split <;> rfl

private theorem ownSems0_pairs (c : Dev nD) :
    (Pipeline.ownSems0 (Ix := Unit) (Name := ℕ) (U := UU) (Lvl := ℕ) (Val := Elt F) (τ := τ) osem c : sProp 𝕄)
      = bigSep Finset.univ fun n : Fin 24 => iprop(semVal (sendCell c n) 0 ∗ semVal (recvCell c n) 0) := by
  rw [ownSems0_eq, bigSep_sep']

private def slotPos (n : Fin 24) : Fin 24 := ⟨(n.val / 8) * 8 + (n.val % 4) * 2 + (n.val / 4) % 2, by have := n.isLt; omega⟩
private theorem posSlot_slotPos (n : Fin 24) : posSlot (slotPos n) = n := by revert n; decide
private theorem slotPos_posSlot (p : Fin 24) : slotPos (posSlot p) = p := by revert p; decide

private theorem bar_eq_iff {a b : Dev nD} : Iff (barCell a = barCell b) (a = b) :=
  ⟨fun h => Fin.ext (congrArg (fun g : GSem nD τ sig => g.1.1.val) h), fun h => h ▸ rfl⟩
private theorem recvCell_inj {c c' : Dev nD} {n n' : Fin 24} (h : recvCell c n = recvCell c' n') : c = c' ∧ n = n' := by
  have h1 : c = c' := Fin.ext (congrArg (fun g : GSem nD τ sig => g.1.1.val) h)
  have h2 : (SemLoc.dma (recvSem n) : SemLoc sig) = .dma (recvSem n') := congrArg Prod.snd h
  have h3 : recvSem n = recvSem n' := SemLoc.dma.inj h2
  have h4 : 26 + n.val = 26 + n'.val := congrArg (fun q : DmaSem sig => q.val) h3
  exact ⟨h1, Fin.ext (by omega)⟩
private theorem recv_ne_barCell (c c' : Dev nD) (n : Fin 24) : recvCell c n ≠ barCell c' := fun h => recv_ne_bar n (congrArg Prod.snd h)

private theorem p1_eq_iff {c d : Dev nD} : Iff (c = p1 d) (d = p1 c) := ⟨fun h => by rw [h, p1_p1], fun h => by rw [h, p1_p1]⟩
private theorem p2_eq_iff {c d : Dev nD} : Iff (c = p2 d) (d = p2 c) := ⟨fun h => by rw [h, p2_p2], fun h => by rw [h, p2_p2]⟩
private theorem ptS_eq_iff {c d : Dev nD} {n : Fin 24} : Iff (c = ptS d n) (d = ptS c n) :=
  ⟨fun h => by rw [h, ptS_ptS], fun h => by rw [h, ptS_ptS]⟩

private theorem Ot_bar (d c : Dev nD) (k : ℕ) : Ot d k (barCell c) () = 0 := by
  unfold Ot
  rw [Finset.sum_apply, Finsupp.finsetSum_apply]
  exact Finset.sum_eq_zero fun p _ => by rw [tallyAt_ne_cell (fun h => recv_ne_barCell _ _ _ h.symm)]; rfl

private theorem Ot0_recv (d c : Dev nD) (n : Fin 24) : Ot d 0 (recvCell c n) () = if d = ptS c n then N else 0 := by
  unfold Ot
  rw [Finset.sum_apply, Finsupp.finsetSum_apply,
    Finset.sum_eq_single (slotPos n)
      (fun p _ hp => by
        rw [tallyAt_ne_cell (fun h => hp (by rw [(recvCell_inj h).2, slotPos_posSlot])) ]; rfl)
      (fun h => absurd (Finset.mem_filter.mpr ⟨Finset.mem_univ (slotPos n), Nat.zero_le (slotPos n).val⟩) h),
    tallyAt_apply, posSlot_slotPos]
  by_cases h : d = ptS c n
  · subst h; rw [ptS_ptS, if_pos ⟨rfl, rfl⟩, if_pos rfl]
  · rw [if_neg h, if_neg (fun h' => h (ptS_eq_iff.mp (recvCell_inj h'.1).1))]

theorem owed_bar (d c : Dev nD) : O₀ d (barCell c) () = (if d = p1 c then 1 else 0) + (if d = p2 c then 1 else 0) := by
  unfold O₀ O₁
  rw [Pi.add_apply, Finsupp.add_apply, Pi.add_apply, Finsupp.add_apply, Ot_bar, tallyAt_apply, tallyAt_apply, Nat.zero_add, Nat.add_comm]
  congr 1
  · by_cases h : d = p1 c
    · subst h; rw [p1_p1, if_pos ⟨rfl, rfl⟩, if_pos rfl]
    · rw [if_neg (fun h' => h (p1_eq_iff.mp (bar_eq_iff.mp h'.1))), if_neg h]
  · by_cases h : d = p2 c
    · subst h; rw [p2_p2, if_pos ⟨rfl, rfl⟩, if_pos rfl]
    · rw [if_neg (fun h' => h (p2_eq_iff.mp (bar_eq_iff.mp h'.1))), if_neg h]

theorem owed_recv (d c : Dev nD) (n : Fin 24) : O₀ d (recvCell c n) () = if d = ptS c n then N else 0 := by
  unfold O₀ O₁
  rw [Pi.add_apply, Finsupp.add_apply, Pi.add_apply, Finsupp.add_apply, Ot0_recv,
    tallyAt_ne_cell (recv_ne_barCell _ _ _), tallyAt_ne_cell (recv_ne_barCell _ _ _), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (p1 c) fun _ => 1, Finset.sum_ite_eq' Finset.univ (p2 c) fun _ => 1, if_pos (Finset.mem_univ _), if_pos (Finset.mem_univ _)]

theorem launch_recv (c : Dev nD) (n : Fin 24) :
    tallyOn (recvCell c n) (launchCredit (Pipeline.owing O₀) 0 (recvCell c n)) = (tallyAt (recvCell c n) () N : CellTallies nD τ sig Unit) := by
  unfold tallyAt; refine congrArg _ (Finsupp.ext fun u => ?_); cases u
  rw [Pipeline.launchCredit_owing, Finsupp.single_eq_same, Finset.sum_congr rfl fun d _ => owed_recv d c n,
    Finset.sum_ite_eq' Finset.univ (ptS c n) fun _ => N, if_pos (Finset.mem_univ _)]

private def recvEmb : Fin 24 ↪ SemLoc sig := ⟨fun n => .dma (recvSem n), fun a b h => by
  have h3 : recvSem a = recvSem b := SemLoc.dma.inj h
  have h4 : 26 + a.val = 26 + b.val := congrArg (fun q : DmaSem sig => q.val) h3
  exact Fin.ext (by omega)⟩

omit [FloatOps F] in
private theorem bigSep_erase_recv (Φ : SemLoc sig → sProp 𝕄) :
    bigSep (Finset.univ.erase (SemLoc.reg barS : SemLoc sig)) Φ ⊢ bigSep Finset.univ fun n : Fin 24 => Φ (.dma (recvSem n)) := by
  have hsub : Finset.univ.map recvEmb ⊆ Finset.univ.erase (SemLoc.reg barS : SemLoc sig) := fun sm h => by
    obtain ⟨n, -, rfl⟩ := Finset.mem_map.mp h
    exact Finset.mem_erase.mpr ⟨recv_ne_bar n, Finset.mem_univ _⟩
  have hsplit : bigSep (Finset.univ.erase (SemLoc.reg barS : SemLoc sig)) Φ
      = iprop(bigSep (Finset.univ.map recvEmb) Φ ∗ bigSep (Finset.univ.erase (SemLoc.reg barS : SemLoc sig) \ Finset.univ.map recvEmb) Φ) := by
    rw [bigSep_sdiff_split hsub]; rfl
  rw [hsplit, bigSep_map]
  iintro ⟨H, -⟩; iexact H

omit [FloatOps F] in
theorem creds_intro (c : Dev nD) : (Pipeline.launchCred O₀ c : sProp 𝕄) ⊢ creds c := by
  unfold Pipeline.launchCred creds
  rw [bigSep_univ_at _ (SemLoc.reg barS), launch_bar]
  exact sep_mono_right ((bigSep_erase_recv _).trans (Entails.of_eq (bigSep_congr fun n _ => congrArg cred (launch_recv c n))))

theorem phi0_intro (m : (ℓ : Loc nD τ sig) → Buf (Elt F) ℓ) (ρ : Dev nD → PrngReg) (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scrAny
  iintro ⟨Hs, -, ⟨%f, Hr⟩⟩
  isplitl [Hs]; · iexact Hs
  iexists f; iexact Hr

theorem phi1_exit (m : (ℓ : Loc nD τ sig) → Buf (Elt F) ℓ) (ρ : Dev nD → PrngReg) (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_pairs]
  unfold Φ₁ scrAny
  iintro ⟨⟨%f, Hr⟩, Hz⟩
  isplitr; · iempintro
  isplitl [Hz]; · iexact Hz
  iexists f; iexact Hr

omit [FloatOps F] in
private theorem O₀_pos {c : Dev nD} {g : GSem nD τ sig} {u : Unit} (h : 0 < O₀ c g u) : g.1.2 = .tc ∧ 1 ≤ lvS g.2 := by
  unfold O₀ O₁ at h
  rw [Pi.add_apply, Finsupp.add_apply, Pi.add_apply, Finsupp.add_apply] at h
  rcases Nat.eq_zero_or_pos (Ot c 0 g u) with h0 | h0
  · rcases Nat.eq_zero_or_pos (tallyAt (barCell (p2 c)) () 1 g u) with h1 | h1
    · have h2 : 0 < tallyAt (barCell (p1 c)) () 1 g u := by omega
      obtain ⟨rfl, _⟩ := Pipeline.tallyAt_pos h2
      exact ⟨rfl, by show 1 ≤ lvS (.reg barS : SemLoc sig); rw [lvS_bar]⟩
    · obtain ⟨rfl, _⟩ := Pipeline.tallyAt_pos h1
      exact ⟨rfl, by show 1 ≤ lvS (.reg barS : SemLoc sig); rw [lvS_bar]⟩
  · obtain ⟨p, _, rfl⟩ := Ot_pos h0
    exact ⟨rfl, by show 1 ≤ lvS (.dma (recvSem (posSlot p)) : SemLoc sig); rw [lvS_recv]; omega⟩

private theorem mayWait_stage (c : Dev nD) (q : DmaSem sig) (hq : q.val < 26) (O : CellTallies nD τ sig Unit) (hO : O = O₀ c ∨ O = 0) :
    (levAts L lv : sProp 𝕄) ⊢ MayWait (c : Thread nD τ) (.dma q) () O := by
  have hl : lvS (.dma q : SemLoc sig) = 0 := by
    show (if 26 ≤ q.val then 2 + (q.val - 26) / 8 else 0) = 0; rw [if_neg (by omega)]
  rcases hO with rfl | rfl
  · exact mayWait_of_levels c (.dma q) (O₀ c) fun g u hg => ⟨(O₀_pos hg).1, by rw [hl]; exact (O₀_pos hg).2⟩
  · rw [MayWait_zero]; iintro -; iempintro

theorem waits (m : (ℓ : Loc nD τ sig) → Buf (Elt F) ℓ) (ρ : Dev nD → PrngReg) (c : Dev nD) :
    (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

set_option maxRecDepth 16000 in
theorem body_obligation (m : (ℓ : Loc nD τ sig) → Buf (Elt F) ℓ) (ρ : Dev nD → PrngReg) (c : Dev nD) :
    BodyObligation (dats (F := F) m ρ 0 c) (defs₀ (F := F)) 𝒱₀ () Set.univ := fun t => by
  rw [fin_N t]
  rw [bigSep_W0, bigSep_W0]
  simp only [owns_whole_eq]
  show bodyPre' m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  exact sound_body m ρ c

end Cert.KernelIdeal.Tree

end
-- ==== Proof.Run.lean ====
import proofs.«900333_g7700000000000334_dist_treered_v7x_i4_m512_n512_f32_1_alg».proof.Proof.LaunchRes
import proofs.«900333_g7700000000000334_dist_treered_v7x_i4_m512_n512_f32_1_alg».proof.Proof.LaunchCred
import Idealize.ShloMosaic.Lib.Pipeline.Launch
import Idealize.ShloMosaic.Lib.Pipeline.Kit
import Idealize.ShloMosaic.Lib.Tactic
import Idealize.ShloMosaic.Lib.Memref

noncomputable section

namespace Cert.KernelIdeal.Tree

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

def finalA (m : (ℓ : Loc nD τ sig) → Buf (Elt F) ℓ) (ρ : Dev nD → PrngReg) (c : Dev nD) (w : Fin cfg0.W) :
    Buf (Elt F) ((cfg0.win w).arr.view.loc (c : Thread nD τ)) := (dats m ρ 0 c).arrAt w cfg0.N

def QC (m : (ℓ : Loc nD τ sig) → Buf (Elt F) ℓ) (ρ : Dev nD → PrngReg) : PUnit × MemSt nD τ sig (Elt F) → Prop := fun r =>
  ∀ c : Dev nD, ∀ w : Fin cfg0.W, r.2.mem ((cfg0.win w).arr.view.loc (c : Thread nD τ)) = finalA m ρ c w

set_option maxRecDepth 16000 in
/-- On the mesh of four devices, from zero counters, every weakly fair execution terminates with the arrays the proof data name. -/
theorem run_main (m : (ℓ : Loc nD τ sig) → Buf (Elt F) ℓ) (ρ : Dev nD → PrngReg) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_tree m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

theorem finalA_x (m : (ℓ : Loc nD τ sig) → Buf (Elt F) ℓ) (ρ : Dev nD → PrngReg) (c : Dev nD) :
    finalA m ρ c (0 : Fin 2) = (s₀ m ρ).mem (win0_0.arr.view.loc (c : Thread nD τ)) :=
  (dats (F := F) m ρ 0 c).arrAt_in (0 : Fin 2) rfl _

theorem finalA_out (m : (ℓ : Loc nD τ sig) → Buf (Elt F) ℓ) (ρ : Dev nD → PrngReg) (c : Dev nD) :
    finalA m ρ c (1 : Fin 2) = outF m ρ c := by
  unfold finalA
  have h1 : (dats m ρ 0 c).arrAt (1 : Fin 2) cfg0.N = (dats m ρ 0 c).arrAt (1 : Fin 2) (t₀.val + 1) := rfl
  rw [h1, Dat.arrAt_succ, flush0_1 t₀, if_pos rfl]
  have hread : ∀ f : Buf (Elt F) ((cfg0.win (1 : Fin 2)).arr.view.loc (c : Thread nD τ)),
      ((cfg0.win (1 : Fin 2)).blk t₀).view.read (Elt F) f = f := fun f =>
    Memref.read_access_unit_zero (Elt F) main_v1 (funext fun a => Nat.zero_mul _) _ f
  exact (hread _).symm.trans (View.read_write_univ _ _)

/-- The run with the result block at `outF` and the argument block unchanged, for every float instance. -/
theorem run_value (m : (ℓ : Loc nD τ sig) → Buf (Elt F) ℓ) (ρ : Dev nD → PrngReg) :
    θ_run (defs (F := F)) (onTc (τ := τ) (main (F := F))) ⟨m, fun _ => 0, ρ⟩
      (fun r => ∀ c : Dev nD, r.2.mem ((c.tc : Thread nD τ).loc main_v1) = outF m ρ c
        ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩)
    (run_main m ρ)

end Cert.KernelIdeal.Tree

end
-- ==== Proof.WordFrame.lean ====
import proofs.«900333_g7700000000000334_dist_treered_v7x_i4_m512_n512_f32_1_alg».proof.Defs
import proofs.«900333_g7700000000000334_dist_treered_v7x_i4_m512_n512_f32_1_alg».proof.Proof.Run
import proofs.«900333_g7700000000000334_dist_treered_v7x_i4_m512_n512_f32_1_alg».proof.Proof.Gen.Kernel
import proofs.«900333_g7700000000000334_dist_treered_v7x_i4_m512_n512_f32_1_alg».proof.Proof.Gen.Pre_finite_inputs_Kernel

noncomputable section

namespace Cert.Proof.TreeClaims

open Idealize.ShloMosaic Idealize.SL.Sem

theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

theorem defs_eq : Cert.Kernel.defs (F := Bits) = Cert.KernelIdeal.defs (F := Bits) :=
  congrArg (Pipeline.defs Cert.KernelIdeal.pcfgs) defs₀_eq

theorem frame_p :
    Cert.frame_Kernel (hKernel := Cert.Kernel.Gen.facts)
      (hPre_finite_inputs_Kernel := Cert.Pre_finite_inputs_Kernel.Gen.facts) :=
  fun m ρ _ => defs_eq ▸
    (θ_run Cert.KernelIdeal.defs _ _).mono (fun _ hh c => (hh c).2) (Cert.KernelIdeal.Tree.run_value (F := Bits) m ρ)

end Cert.Proof.TreeClaims

end
-- ==== Proof.lean ====
/- Four devices each hold one 512×512 block of `x`; each must end with the sum of the four blocks.
   The rows split into two halves, and within a half a device keeps one quarter of the rows and gives the other away.
   Three exchange rounds follow: after the first the kept quarter is a sum of two blocks, after the second of all
   four, and in the third the finished quarters are swapped. Addition of extended reals is commutative and
   associative, so every device ends with the reference's sum over the first axis. The run is proved once for every
   float instance; the two printed kernels have the same body, so the same run serves the word-level frame. -/
import proofs.«900333_g7700000000000334_dist_treered_v7x_i4_m512_n512_f32_1_alg».proof.Defs
import proofs.«900333_g7700000000000334_dist_treered_v7x_i4_m512_n512_f32_1_alg».proof.Proof.Claims
import proofs.«900333_g7700000000000334_dist_treered_v7x_i4_m512_n512_f32_1_alg».proof.Proof.Run
import proofs.«900333_g7700000000000334_dist_treered_v7x_i4_m512_n512_f32_1_alg».proof.Proof.WordFrame

noncomputable section

open Idealize.ShloMosaic

theorem Cert.Proof.claim : Cert.Claim :=
  Cert.Proof.TreeClaims.claim_of Cert.Proof.TreeClaims.frame_p (fun m ρ => Cert.KernelIdeal.Tree.run_value (F := Ideal) m ρ)

end
